-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v198_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S3200000 : Shape := ⟨1, ![3200000]⟩
abbrev S3200000x2 : Shape := ⟨2, ![3200000, 2]⟩
abbrev S2x32 : Shape := ⟨2, ![2, 32]⟩
abbrev S32 : Shape := ⟨1, ![32]⟩
abbrev S3x70x32 : Shape := ⟨3, ![3, 70, 32]⟩
abbrev S3x32 : Shape := ⟨2, ![3, 32]⟩
abbrev S3x66x32 : Shape := ⟨3, ![3, 66, 32]⟩
abbrev S3x64x32 : Shape := ⟨3, ![3, 64, 32]⟩
abbrev S3x32x2 : Shape := ⟨3, ![3, 32, 2]⟩
abbrev S3x2 : Shape := ⟨2, ![3, 2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_
  bcast_S_S3200000 : S_.BroadcastsInDim S3200000 (![] : Fin 0 → Fin S3200000.rank)
  reducesTo_S3200000_S_d0 : S3200000.ReducesTo [0] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S3x70x32 : S_.BroadcastsInDim S3x70x32 (![] : Fin 0 → Fin S3x70x32.rank)
  reducesTo_S3x70x32_S_d0_1_2 : S3x70x32.ReducesTo [0, 1, 2] S_
  bcast_S_S3x32 : S_.BroadcastsInDim S3x32 (![] : Fin 0 → Fin S3x32.rank)
  reducesTo_S3x32_S_d0_1 : S3x32.ReducesTo [0, 1] S_
  bcast_S_S3x66x32 : S_.BroadcastsInDim S3x66x32 (![] : Fin 0 → Fin S3x66x32.rank)
  reducesTo_S3x66x32_S_d0_1_2 : S3x66x32.ReducesTo [0, 1, 2] S_
  bcast_S_S3x64x32 : S_.BroadcastsInDim S3x64x32 (![] : Fin 0 → Fin S3x64x32.rank)
  reducesTo_S3x64x32_S_d0_1_2 : S3x64x32.ReducesTo [0, 1, 2] S_
  bcast_S_S3x32x2 : S_.BroadcastsInDim S3x32x2 (![] : Fin 0 → Fin S3x32x2.rank)
  reducesTo_S3x32x2_S_d0_1_2 : S3x32x2.ReducesTo [0, 1, 2] S_
  bcast_S_S3x2 : S_.BroadcastsInDim S3x2 (![] : Fin 0 → Fin S3x2.rank)
  reducesTo_S3x2_S_d0_1 : S3x2.ReducesTo [0, 1] S_

variable [Facts]

def fn_part4 {F : FTy → Type} [FloatOps F] (main_arg16 : FVec F S3x2 .f32) (main_v63 : IVec S_ 1) (main_v67 : IVec S_ 1) : IVec S_ 1 :=
  let main_v68 : IVec S_ 1 := andi main_v63 main_v67
  let main_v69 : FVec F S3x2 .f32 := Host.absf main_arg16
  let main_cst_26 : FVec F S_ .f32 := constant S_ .f32 0x7F800000#32
  let main_v70 : FVec F S3x2 .f32 := broadcastInDim S3x2 ![] bcast_S_S3x2 main_cst_26
  let main_v71 : IVec S3x2 1 := cmpf .olt main_v69 main_v70
  let main_c_27 : IVec S_ 1 := constantI S_ 1 1#1
  let main_v72 : IVec S_ 1 := (fun x v => Host.reduce IntOp.andi x v reducesTo_S3x2_S_d0_1 h_S_) main_v71 main_c_27
  let main_v73 : IVec S_ 1 := andi main_v68 main_v72
  main_v73

def fn_part3 {F : FTy → Type} [FloatOps F] (main_arg13 : FVec F S3x64x32 .f32) (main_arg14 : FVec F S3x32 .f32) (main_arg15 : FVec F S3x32x2 .f32) (main_arg16 : FVec F S3x2 .f32) (main_v48 : IVec S_ 1) (main_v49 : FVec F S3x32 .f32) (main_v50 : FVec F S3x32 .f32) : IVec S_ 1 :=
  let main_v51 : IVec S3x32 1 := cmpf .olt main_v49 main_v50
  let main_c_19 : IVec S_ 1 := constantI S_ 1 1#1
  let main_v52 : IVec S_ 1 := (fun x v => Host.reduce IntOp.andi x v reducesTo_S3x32_S_d0_1 h_S_) main_v51 main_c_19
  let main_v53 : IVec S_ 1 := andi main_v48 main_v52
  let main_v54 : FVec F S3x64x32 .f32 := Host.absf main_arg13
  let main_cst_20 : FVec F S_ .f32 := constant S_ .f32 0x7F800000#32
  let main_v55 : FVec F S3x64x32 .f32 := broadcastInDim S3x64x32 ![] bcast_S_S3x64x32 main_cst_20
  let main_v56 : IVec S3x64x32 1 := cmpf .olt main_v54 main_v55
  let main_c_21 : IVec S_ 1 := constantI S_ 1 1#1
  let main_v57 : IVec S_ 1 := (fun x v => Host.reduce IntOp.andi x v reducesTo_S3x64x32_S_d0_1_2 h_S_) main_v56 main_c_21
  let main_v58 : IVec S_ 1 := andi main_v53 main_v57
  let main_v59 : FVec F S3x32 .f32 := Host.absf main_arg14
  let main_cst_22 : FVec F S_ .f32 := constant S_ .f32 0x7F800000#32
  let main_v60 : FVec F S3x32 .f32 := broadcastInDim S3x32 ![] bcast_S_S3x32 main_cst_22
  let main_v61 : IVec S3x32 1 := cmpf .olt main_v59 main_v60
  let main_c_23 : IVec S_ 1 := constantI S_ 1 1#1
  let main_v62 : IVec S_ 1 := (fun x v => Host.reduce IntOp.andi x v reducesTo_S3x32_S_d0_1 h_S_) main_v61 main_c_23
  let main_v63 : IVec S_ 1 := andi main_v58 main_v62
  let main_v64 : FVec F S3x32x2 .f32 := Host.absf main_arg15
  let main_cst_24 : FVec F S_ .f32 := constant S_ .f32 0x7F800000#32
  let main_v65 : FVec F S3x32x2 .f32 := broadcastInDim S3x32x2 ![] bcast_S_S3x32x2 main_cst_24
  let main_v66 : IVec S3x32x2 1 := cmpf .olt main_v64 main_v65
  let main_c_25 : IVec S_ 1 := constantI S_ 1 1#1
  let main_v67 : IVec S_ 1 := (fun x v => Host.reduce IntOp.andi x v reducesTo_S3x32x2_S_d0_1_2 h_S_) main_v66 main_c_25
  fn_part4 (F := F) main_arg16 main_v63 main_v67

def fn_part2 {F : FTy → Type} [FloatOps F] (main_arg9 : FVec F S3x66x32 .f32) (main_arg10 : FVec F S3x32 .f32) (main_arg11 : FVec F S3x64x32 .f32) (main_arg12 : FVec F S3x32 .f32) (main_arg13 : FVec F S3x64x32 .f32) (main_arg14 : FVec F S3x32 .f32) (main_arg15 : FVec F S3x32x2 .f32) (main_arg16 : FVec F S3x2 .f32) (main_v33 : IVec S_ 1) : IVec S_ 1 :=
  let main_v34 : FVec F S3x66x32 .f32 := Host.absf main_arg9
  let main_cst_12 : FVec F S_ .f32 := constant S_ .f32 0x7F800000#32
  let main_v35 : FVec F S3x66x32 .f32 := broadcastInDim S3x66x32 ![] bcast_S_S3x66x32 main_cst_12
  let main_v36 : IVec S3x66x32 1 := cmpf .olt main_v34 main_v35
  let main_c_13 : IVec S_ 1 := constantI S_ 1 1#1
  let main_v37 : IVec S_ 1 := (fun x v => Host.reduce IntOp.andi x v reducesTo_S3x66x32_S_d0_1_2 h_S_) main_v36 main_c_13
  let main_v38 : IVec S_ 1 := andi main_v33 main_v37
  let main_v39 : FVec F S3x32 .f32 := Host.absf main_arg10
  let main_cst_14 : FVec F S_ .f32 := constant S_ .f32 0x7F800000#32
  let main_v40 : FVec F S3x32 .f32 := broadcastInDim S3x32 ![] bcast_S_S3x32 main_cst_14
  let main_v41 : IVec S3x32 1 := cmpf .olt main_v39 main_v40
  let main_c_15 : IVec S_ 1 := constantI S_ 1 1#1
  let main_v42 : IVec S_ 1 := (fun x v => Host.reduce IntOp.andi x v reducesTo_S3x32_S_d0_1 h_S_) main_v41 main_c_15
  let main_v43 : IVec S_ 1 := andi main_v38 main_v42
  let main_v44 : FVec F S3x64x32 .f32 := Host.absf main_arg11
  let main_cst_16 : FVec F S_ .f32 := constant S_ .f32 0x7F800000#32
  let main_v45 : FVec F S3x64x32 .f32 := broadcastInDim S3x64x32 ![] bcast_S_S3x64x32 main_cst_16
  let main_v46 : IVec S3x64x32 1 := cmpf .olt main_v44 main_v45
  let main_c_17 : IVec S_ 1 := constantI S_ 1 1#1
  let main_v47 : IVec S_ 1 := (fun x v => Host.reduce IntOp.andi x v reducesTo_S3x64x32_S_d0_1_2 h_S_) main_v46 main_c_17
  let main_v48 : IVec S_ 1 := andi main_v43 main_v47
  let main_v49 : FVec F S3x32 .f32 := Host.absf main_arg12
  let main_cst_18 : FVec F S_ .f32 := constant S_ .f32 0x7F800000#32
  let main_v50 : FVec F S3x32 .f32 := broadcastInDim S3x32 ![] bcast_S_S3x32 main_cst_18
  fn_part3 (F := F) main_arg13 main_arg14 main_arg15 main_arg16 main_v48 main_v49 main_v50

def fn_part1 {F : FTy → Type} [FloatOps F] (main_arg6 : FVec F S32 .f32) (main_arg7 : FVec F S3x70x32 .f32) (main_arg8 : FVec F S3x32 .f32) (main_arg9 : FVec F S3x66x32 .f32) (main_arg10 : FVec F S3x32 .f32) (main_arg11 : FVec F S3x64x32 .f32) (main_arg12 : FVec F S3x32 .f32) (main_arg13 : FVec F S3x64x32 .f32) (main_arg14 : FVec F S3x32 .f32) (main_arg15 : FVec F S3x32x2 .f32) (main_arg16 : FVec F S3x2 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S3x70x32 .f32 := Host.absf main_arg7
  let main_cst_8 : FVec F S_ .f32 := constant S_ .f32 0x7F800000#32
  let main_v25 : FVec F S3x70x32 .f32 := broadcastInDim S3x70x32 ![] bcast_S_S3x70x32 main_cst_8
  let main_v26 : IVec S3x70x32 1 := cmpf .olt main_v24 main_v25
  let main_c_9 : IVec S_ 1 := constantI S_ 1 1#1
  let main_v27 : IVec S_ 1 := (fun x v => Host.reduce IntOp.andi x v reducesTo_S3x70x32_S_d0_1_2 h_S_) main_v26 main_c_9
  let main_v28 : IVec S_ 1 := andi main_v23 main_v27
  let main_v29 : FVec F S3x32 .f32 := Host.absf main_arg8
  let main_cst_10 : FVec F S_ .f32 := constant S_ .f32 0x7F800000#32
  let main_v30 : FVec F S3x32 .f32 := broadcastInDim S3x32 ![] bcast_S_S3x32 main_cst_10
  let main_v31 : IVec S3x32 1 := cmpf .olt main_v29 main_v30
  let main_c_11 : IVec S_ 1 := constantI S_ 1 1#1
  let main_v32 : IVec S_ 1 := (fun x v => Host.reduce IntOp.andi x v reducesTo_S3x32_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x2 .f32) (main_arg1 : IVec S3200000 32) (main_arg2 : IVec S3200000 32) (main_arg3 : FVec F S3200000x2 .f32) (main_arg4 : FVec F S3200000 .f32) (main_arg5 : FVec F S2x32 .f32) (main_arg6 : FVec F S32 .f32) (main_arg7 : FVec F S3x70x32 .f32) (main_arg8 : FVec F S3x32 .f32) (main_arg9 : FVec F S3x66x32 .f32) (main_arg10 : FVec F S3x32 .f32) (main_arg11 : FVec F S3x64x32 .f32) (main_arg12 : FVec F S3x32 .f32) (main_arg13 : FVec F S3x64x32 .f32) (main_arg14 : FVec F S3x32 .f32) (main_arg15 : FVec F S3x32x2 .f32) (main_arg16 : FVec F S3x2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S3200000x2 .f32 := Host.absf main_arg3
  let main_cst_0 : FVec F S_ .f32 := constant S_ .f32 0x7F800000#32
  let main_v5 : FVec F S3200000x2 .f32 := broadcastInDim S3200000x2 ![] bcast_S_S3200000x2 main_cst_0
  let main_v6 : IVec S3200000x2 1 := cmpf .olt main_v4 main_v5
  let main_c_1 : IVec S_ 1 := constantI S_ 1 1#1
  let main_v7 : IVec S_ 1 := (fun x v => Host.reduce IntOp.andi x v reducesTo_S3200000x2_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S2x32 .f32 := Host.absf main_arg5
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x2 : Shape := ⟨2, ![100000, 2]⟩
abbrev S3200000 : Shape := ⟨1, ![3200000]⟩
abbrev S3200000x2 : Shape := ⟨2, ![3200000, 2]⟩
abbrev S2x32 : Shape := ⟨2, ![2, 32]⟩
abbrev S32 : Shape := ⟨1, ![32]⟩
abbrev S3x70x32 : Shape := ⟨3, ![3, 70, 32]⟩
abbrev S3x32 : Shape := ⟨2, ![3, 32]⟩
abbrev S3x66x32 : Shape := ⟨3, ![3, 66, 32]⟩
abbrev S3x64x32 : Shape := ⟨3, ![3, 64, 32]⟩
abbrev S3x32x2 : Shape := ⟨3, ![3, 32, 2]⟩
abbrev S3x2 : Shape := ⟨2, ![3, 2]⟩
abbrev S_ : Shape := ⟨0, ![]⟩
abbrev S1 : Shape := ⟨1, ![1]⟩
abbrev S100000 : Shape := ⟨1, ![100000]⟩
abbrev S100000x32 : Shape := ⟨2, ![100000, 32]⟩
abbrev S1x32 : Shape := ⟨2, ![1, 32]⟩
abbrev S3200000x1 : Shape := ⟨2, ![3200000, 1]⟩
abbrev S100000x34 : Shape := ⟨2, ![100000, 34]⟩
abbrev S3200000x34 : Shape := ⟨2, ![3200000, 34]⟩
abbrev S1x70x32 : Shape := ⟨3, ![1, 70, 32]⟩
abbrev S70x32 : Shape := ⟨2, ![70, 32]⟩
abbrev S34x32 : Shape := ⟨2, ![34, 32]⟩
abbrev S3200000x32 : Shape := ⟨2, ![3200000, 32]⟩
abbrev S50000x34 : Shape := ⟨2, ![50000, 34]⟩
abbrev S50000x2 : Shape := ⟨2, ![50000, 2]⟩
abbrev S50000x1 : Shape := ⟨2, ![50000, 1]⟩
abbrev S50000x32 : Shape := ⟨2, ![50000, 32]⟩
abbrev S1x66x32 : Shape := ⟨3, ![1, 66, 32]⟩
abbrev S66x32 : Shape := ⟨2, ![66, 32]⟩
abbrev S32x32 : Shape := ⟨2, ![32, 32]⟩
abbrev S25000x34 : Shape := ⟨2, ![25000, 34]⟩
abbrev S25000x32 : Shape := ⟨2, ![25000, 32]⟩
abbrev S1x64x32 : Shape := ⟨3, ![1, 64, 32]⟩
abbrev S64x32 : Shape := ⟨2, ![64, 32]⟩
abbrev S1x32x2 : Shape := ⟨3, ![1, 32, 2]⟩
abbrev S32x2 : Shape := ⟨2, ![32, 2]⟩
abbrev S1x2 : Shape := ⟨2, ![1, 2]⟩
abbrev S2 : Shape := ⟨1, ![2]⟩
abbrev S25000x2 : Shape := ⟨2, ![25000, 2]⟩

abbrev nBuf : Space → Nat
  | .hbm => 250
  | .vmem => 105
  | .smem => 0
  | _ => 0

abbrev hbmTy0_0 (i : Nat) : BufTy := match i % 128 with
  | 0 => ⟨S100000x2, .f32⟩
  | 1 => ⟨S3200000, .i32⟩
  | 2 => ⟨S3200000, .i32⟩
  | 3 => ⟨S3200000x2, .f32⟩
  | 4 => ⟨S3200000, .f32⟩
  | 5 => ⟨S2x32, .f32⟩
  | 6 => ⟨S32, .f32⟩
  | 7 => ⟨S3x70x32, .f32⟩
  | 8 => ⟨S3x32, .f32⟩
  | 9 => ⟨S3x66x32, .f32⟩
  | 10 => ⟨S3x32, .f32⟩
  | 11 => ⟨S3x64x32, .f32⟩
  | 12 => ⟨S3x32, .f32⟩
  | 13 => ⟨S3x64x32, .f32⟩
  | 14 => ⟨S3x32, .f32⟩
  | 15 => ⟨S3x32x2, .f32⟩
  | 16 => ⟨S3x2, .f32⟩
  | 17 => ⟨S_, .f32⟩
  | 18 => ⟨S100000x2, .f32⟩
  | 19 => ⟨S_, .i32⟩
  | 20 => ⟨S1, .i32⟩
  | 21 => ⟨S_, .f32⟩
  | 22 => ⟨S100000, .f32⟩
  | 23 => ⟨S100000x2, .f32⟩
  | 24 => ⟨S100000x32, .f32⟩
  | 25 => ⟨S1x32, .f32⟩
  | 26 => ⟨S100000x32, .f32⟩
  | 27 => ⟨S100000x32, .f32⟩
  | 28 => ⟨S_, .f32⟩
  | 29 => ⟨S1x32, .f32⟩
  | 30 => ⟨S3200000x1, .f32⟩
  | 31 => ⟨S100000x34, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x34, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x34, .f32⟩
  | 50 => ⟨S1x70x32, .f32⟩
  | 51 => ⟨S70x32, .f32⟩
  | 52 => ⟨S34x32, .f32⟩
  | 53 => ⟨S34x32, .f32⟩
  | 54 => ⟨S2x32, .f32⟩
  | 55 => ⟨S1x32, .f32⟩
  | 56 => ⟨S32, .f32⟩
  | 57 => ⟨S3200000x32, .f32⟩
  | 58 => ⟨S_, .f32⟩
  | 59 => ⟨S100000x32, .f32⟩
  | 60 => ⟨S3200000x1, .i32⟩
  | 61 => ⟨S100000x32, .f32⟩
  | 62 => ⟨S1x66x32, .f32⟩
  | 63 => ⟨S66x32, .f32⟩
  | 64 => ⟨S34x32, .f32⟩
  | 65 => ⟨S32x32, .f32⟩
  | 66 => ⟨S1x32, .f32⟩
  | 67 => ⟨S32, .f32⟩
  | 68 => ⟨S100000x32, .f32⟩
  | 69 => ⟨S_, .f32⟩
  | 70 => ⟨S32, .f32⟩
  | 71 => ⟨S1x32, .f32⟩
  | 72 => ⟨S_, .f32⟩
  | 73 => ⟨S1x32, .f32⟩
  | 74 => ⟨S1x32, .f32⟩
  | 75 => ⟨S1x64x32, .f32⟩
  | 76 => ⟨S64x32, .f32⟩
  | 77 => ⟨S32x32, .f32⟩
  | 78 => ⟨S32x32, .f32⟩
  | 79 => ⟨S1x32, .f32⟩
  | 80 => ⟨S1x32, .f32⟩
  | 81 => ⟨S1x32, .f32⟩
  | 82 => ⟨S1x32, .f32⟩
  | 83 => ⟨S32, .f32⟩
  | 84 => ⟨S1x32, .f32⟩
  | 85 => ⟨S1x32, .f32⟩
  | 86 => ⟨S_, .f32⟩
  | 87 => ⟨S1x32, .f32⟩
  | 88 => ⟨S1x32, .f32⟩
  | 89 => ⟨S1x64x32, .f32⟩
  | 90 => ⟨S64x32, .f32⟩
  | 91 => ⟨S32x32, .f32⟩
  | 92 => ⟨S32x32, .f32⟩
  | 93 => ⟨S1x32, .f32⟩
  | 94 => ⟨S1x32, .f32⟩
  | 95 => ⟨S32, .f32⟩
  | 96 => ⟨S1x32, .f32⟩
  | 97 => ⟨S1x32, .f32⟩
  | 98 => ⟨S1x32x2, .f32⟩
  | 99 => ⟨S32x2, .f32⟩
  | 100 => ⟨S1x2, .f32⟩
  | 101 => ⟨S2, .f32⟩
  | 102 => ⟨S100000x32, .f32⟩
  | 103 => ⟨S100000x2, .f32⟩
  | 104 => ⟨S100000x34, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x34, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x34, .f32⟩
  | 123 => ⟨S1x70x32, .f32⟩
  | 124 => ⟨S70x32, .f32⟩
  | 125 => ⟨S34x32, .f32⟩
  | 126 => ⟨S34x32, .f32⟩
  | 127 => ⟨S2x32, .f32⟩
  | _ => ⟨S100000x2, .f32⟩

abbrev hbmTy0_1 (i : Nat) : BufTy := match i % 128 with
  | 0 => ⟨S1x32, .f32⟩
  | 1 => ⟨S32, .f32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S1x66x32, .f32⟩
  | 8 => ⟨S66x32, .f32⟩
  | 9 => ⟨S34x32, .f32⟩
  | 10 => ⟨S32x32, .f32⟩
  | 11 => ⟨S1x32, .f32⟩
  | 12 => ⟨S32, .f32⟩
  | 13 => ⟨S100000x32, .f32⟩
  | 14 => ⟨S_, .f32⟩
  | 15 => ⟨S32, .f32⟩
  | 16 => ⟨S1x32, .f32⟩
  | 17 => ⟨S_, .f32⟩
  | 18 => ⟨S1x32, .f32⟩
  | 19 => ⟨S1x32, .f32⟩
  | 20 => ⟨S1x64x32, .f32⟩
  | 21 => ⟨S64x32, .f32⟩
  | 22 => ⟨S32x32, .f32⟩
  | 23 => ⟨S32x32, .f32⟩
  | 24 => ⟨S1x32, .f32⟩
  | 25 => ⟨S1x32, .f32⟩
  | 26 => ⟨S1x32, .f32⟩
  | 27 => ⟨S1x32, .f32⟩
  | 28 => ⟨S32, .f32⟩
  | 29 => ⟨S1x32, .f32⟩
  | 30 => ⟨S1x32, .f32⟩
  | 31 => ⟨S_, .f32⟩
  | 32 => ⟨S1x32, .f32⟩
  | 33 => ⟨S1x32, .f32⟩
  | 34 => ⟨S1x64x32, .f32⟩
  | 35 => ⟨S64x32, .f32⟩
  | 36 => ⟨S32x32, .f32⟩
  | 37 => ⟨S32x32, .f32⟩
  | 38 => ⟨S1x32, .f32⟩
  | 39 => ⟨S1x32, .f32⟩
  | 40 => ⟨S32, .f32⟩
  | 41 => ⟨S1x32, .f32⟩
  | 42 => ⟨S1x32, .f32⟩
  | 43 => ⟨S1x32x2, .f32⟩
  | 44 => ⟨S32x2, .f32⟩
  | 45 => ⟨S1x2, .f32⟩
  | 46 => ⟨S2, .f32⟩
  | 47 => ⟨S100000x32, .f32⟩
  | 48 => ⟨S100000x2, .f32⟩
  | 49 => ⟨S100000x34, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x34, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x34, .f32⟩
  | 68 => ⟨S1x70x32, .f32⟩
  | 69 => ⟨S70x32, .f32⟩
  | 70 => ⟨S34x32, .f32⟩
  | 71 => ⟨S34x32, .f32⟩
  | 72 => ⟨S2x32, .f32⟩
  | 73 => ⟨S1x32, .f32⟩
  | 74 => ⟨S32, .f32⟩
  | 75 => ⟨S3200000x32, .f32⟩
  | 76 => ⟨S_, .f32⟩
  | 77 => ⟨S100000x32, .f32⟩
  | 78 => ⟨S3200000x1, .i32⟩
  | 79 => ⟨S100000x32, .f32⟩
  | 80 => ⟨S1x66x32, .f32⟩
  | 81 => ⟨S66x32, .f32⟩
  | 82 => ⟨S34x32, .f32⟩
  | 83 => ⟨S32x32, .f32⟩
  | 84 => ⟨S1x32, .f32⟩
  | 85 => ⟨S32, .f32⟩
  | 86 => ⟨S100000x32, .f32⟩
  | 87 => ⟨S_, .f32⟩
  | 88 => ⟨S32, .f32⟩
  | 89 => ⟨S1x32, .f32⟩
  | 90 => ⟨S_, .f32⟩
  | 91 => ⟨S1x32, .f32⟩
  | 92 => ⟨S1x32, .f32⟩
  | 93 => ⟨S1x64x32, .f32⟩
  | 94 => ⟨S64x32, .f32⟩
  | 95 => ⟨S32x32, .f32⟩
  | 96 => ⟨S32x32, .f32⟩
  | 97 => ⟨S1x32, .f32⟩
  | 98 => ⟨S1x32, .f32⟩
  | 99 => ⟨S1x32, .f32⟩
  | 100 => ⟨S1x32, .f32⟩
  | 101 => ⟨S32, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S1x64x32, .f32⟩
  | 108 => ⟨S64x32, .f32⟩
  | 109 => ⟨S32x32, .f32⟩
  | 110 => ⟨S32x32, .f32⟩
  | 111 => ⟨S1x32, .f32⟩
  | 112 => ⟨S1x32, .f32⟩
  | 113 => ⟨S32, .f32⟩
  | 114 => ⟨S1x32, .f32⟩
  | 115 => ⟨S1x32, .f32⟩
  | 116 => ⟨S1x32x2, .f32⟩
  | 117 => ⟨S32x2, .f32⟩
  | 118 => ⟨S1x2, .f32⟩
  | 119 => ⟨S2, .f32⟩
  | 120 => ⟨S100000x32, .f32⟩
  | 121 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S50000x34, .f32⟩
  | .local _ .vmem, ⟨1, _⟩ => ⟨S50000x34, .f32⟩
  | .local _ .vmem, ⟨2, _⟩ => ⟨S50000x34, .f32⟩
  | .local _ .vmem, ⟨3, _⟩ => ⟨S50000x34, .f32⟩
  | .local _ .vmem, ⟨4, _⟩ => ⟨S50000x2, .f32⟩
  | .local _ .vmem, ⟨5, _⟩ => ⟨S50000x2, .f32⟩
  | .local _ .vmem, ⟨6, _⟩ => ⟨S50000x1, .f32⟩
  | .local _ .vmem, ⟨7, _⟩ => ⟨S50000x1, .f32⟩
  | .local _ .vmem, ⟨8, _⟩ => ⟨S34x32, .f32⟩
  | .local _ .vmem, ⟨9, _⟩ => ⟨S34x32, .f32⟩
  | .local _ .vmem, ⟨10, _⟩ => ⟨S2x32, .f32⟩
  | .local _ .vmem, ⟨11, _⟩ => ⟨S32, .f32⟩
  | .local _ .vmem, ⟨12, _⟩ => ⟨S50000x32, .f32⟩
  | .local _ .vmem, ⟨13, _⟩ => ⟨S50000x32, .f32⟩
  | .local _ .vmem, ⟨14, _⟩ => ⟨S25000x34, .f32⟩
  | .local _ .vmem, ⟨15, _⟩ => ⟨S25000x34, .f32⟩
  | .local _ .vmem, ⟨16, _⟩ => ⟨S25000x32, .f32⟩
  | .local _ .vmem, ⟨17, _⟩ => ⟨S25000x32, .f32⟩
  | .local _ .vmem, ⟨18, _⟩ => ⟨S34x32, .f32⟩
  | .local _ .vmem, ⟨19, _⟩ => ⟨S32x32, .f32⟩
  | .local _ .vmem, ⟨20, _⟩ => ⟨S32, .f32⟩
  | .local _ .vmem, ⟨21, _⟩ => ⟨S25000x32, .f32⟩
  | .local _ .vmem, ⟨22, _⟩ => ⟨S25000x32, .f32⟩
  | .local _ .vmem, ⟨23, _⟩ => ⟨S25000x32, .f32⟩
  | .local _ .vmem, ⟨24, _⟩ => ⟨S25000x32, .f32⟩
  | .local _ .vmem, ⟨25, _⟩ => ⟨S25000x2, .f32⟩
  | .local _ .vmem, ⟨26, _⟩ => ⟨S25000x2, .f32⟩
  | .local _ .vmem, ⟨27, _⟩ => ⟨S32x32, .f32⟩
  | .local _ .vmem, ⟨28, _⟩ => ⟨S1x32, .f32⟩
  | .local _ .vmem, ⟨29, _⟩ => ⟨S32x2, .f32⟩
  | .local _ .vmem, ⟨30, _⟩ => ⟨S2, .f32⟩
  | .local _ .vmem, ⟨31, _⟩ => ⟨S25000x32, .f32⟩
  | .local _ .vmem, ⟨32, _⟩ => ⟨S25000x32, .f32⟩
  | .local _ .vmem, ⟨33, _⟩ => ⟨S25000x2, .f32⟩
  | .local _ .vmem, ⟨34, _⟩ => ⟨S25000x2, .f32⟩
  | .local _ .vmem, ⟨35, _⟩ => ⟨S50000x34, .f32⟩
  | .local _ .vmem, ⟨36, _⟩ => ⟨S50000x34, .f32⟩
  | .local _ .vmem, ⟨37, _⟩ => ⟨S50000x34, .f32⟩
  | .local _ .vmem, ⟨38, _⟩ => ⟨S50000x34, .f32⟩
  | .local _ .vmem, ⟨39, _⟩ => ⟨S50000x2, .f32⟩
  | .local _ .vmem, ⟨40, _⟩ => ⟨S50000x2, .f32⟩
  | .local _ .vmem, ⟨41, _⟩ => ⟨S50000x1, .f32⟩
  | .local _ .vmem, ⟨42, _⟩ => ⟨S50000x1, .f32⟩
  | .local _ .vmem, ⟨43, _⟩ => ⟨S34x32, .f32⟩
  | .local _ .vmem, ⟨44, _⟩ => ⟨S34x32, .f32⟩
  | .local _ .vmem, ⟨45, _⟩ => ⟨S2x32, .f32⟩
  | .local _ .vmem, ⟨46, _⟩ => ⟨S32, .f32⟩
  | .local _ .vmem, ⟨47, _⟩ => ⟨S50000x32, .f32⟩
  | .local _ .vmem, ⟨48, _⟩ => ⟨S50000x32, .f32⟩
  | .local _ .vmem, ⟨49, _⟩ => ⟨S25000x34, .f32⟩
  | .local _ .vmem, ⟨50, _⟩ => ⟨S25000x34, .f32⟩
  | .local _ .vmem, ⟨51, _⟩ => ⟨S25000x32, .f32⟩
  | .local _ .vmem, ⟨52, _⟩ => ⟨S25000x32, .f32⟩
  | .local _ .vmem, ⟨53, _⟩ => ⟨S34x32, .f32⟩
  | .local _ .vmem, ⟨54, _⟩ => ⟨S32x32, .f32⟩
  | .local _ .vmem, ⟨55, _⟩ => ⟨S32, .f32⟩
  | .local _ .vmem, ⟨56, _⟩ => ⟨S25000x32, .f32⟩
  | .local _ .vmem, ⟨57, _⟩ => ⟨S25000x32, .f32⟩
  | .local _ .vmem, ⟨58, _⟩ => ⟨S25000x32, .f32⟩
  | .local _ .vmem, ⟨59, _⟩ => ⟨S25000x32, .f32⟩
  | .local _ .vmem, ⟨60, _⟩ => ⟨S25000x2, .f32⟩
  | .local _ .vmem, ⟨61, _⟩ => ⟨S25000x2, .f32⟩
  | .local _ .vmem, ⟨62, _⟩ => ⟨S32x32, .f32⟩
  | .local _ .vmem, ⟨63, _⟩ => ⟨S1x32, .f32⟩
  | .local _ .vmem, ⟨64, _⟩ => ⟨S32x2, .f32⟩
  | .local _ .vmem, ⟨65, _⟩ => ⟨S2, .f32⟩
  | .local _ .vmem, ⟨66, _⟩ => ⟨S25000x32, .f32⟩
  | .local _ .vmem, ⟨67, _⟩ => ⟨S25000x32, .f32⟩
  | .local _ .vmem, ⟨68, _⟩ => ⟨S25000x2, .f32⟩
  | .local _ .vmem, ⟨69, _⟩ => ⟨S25000x2, .f32⟩
  | .local _ .vmem, ⟨70, _⟩ => ⟨S50000x34, .f32⟩
  | .local _ .vmem, ⟨71, _⟩ => ⟨S50000x34, .f32⟩
  | .local _ .vmem, ⟨72, _⟩ => ⟨S50000x34, .f32⟩
  | .local _ .vmem, ⟨73, _⟩ => ⟨S50000x34, .f32⟩
  | .local _ .vmem, ⟨74, _⟩ => ⟨S50000x2, .f32⟩
  | .local _ .vmem, ⟨75, _⟩ => ⟨S50000x2, .f32⟩
  | .local _ .vmem, ⟨76, _⟩ => ⟨S50000x1, .f32⟩
  | .local _ .vmem, ⟨77, _⟩ => ⟨S50000x1, .f32⟩
  | .local _ .vmem, ⟨78, _⟩ => ⟨S34x32, .f32⟩
  | .local _ .vmem, ⟨79, _⟩ => ⟨S34x32, .f32⟩
  | .local _ .vmem, ⟨80, _⟩ => ⟨S2x32, .f32⟩
  | .local _ .vmem, ⟨81, _⟩ => ⟨S32, .f32⟩
  | .local _ .vmem, ⟨82, _⟩ => ⟨S50000x32, .f32⟩
  | .local _ .vmem, ⟨83, _⟩ => ⟨S50000x32, .f32⟩
  | .local _ .vmem, ⟨84, _⟩ => ⟨S25000x34, .f32⟩
  | .local _ .vmem, ⟨85, _⟩ => ⟨S25000x34, .f32⟩
  | .local _ .vmem, ⟨86, _⟩ => ⟨S25000x32, .f32⟩
  | .local _ .vmem, ⟨87, _⟩ => ⟨S25000x32, .f32⟩
  | .local _ .vmem, ⟨88, _⟩ => ⟨S34x32, .f32⟩
  | .local _ .vmem, ⟨89, _⟩ => ⟨S32x32, .f32⟩
  | .local _ .vmem, ⟨90, _⟩ => ⟨S32, .f32⟩
  | .local _ .vmem, ⟨91, _⟩ => ⟨S25000x32, .f32⟩
  | .local _ .vmem, ⟨92, _⟩ => ⟨S25000x32, .f32⟩
  | .local _ .vmem, ⟨93, _⟩ => ⟨S25000x32, .f32⟩
  | .local _ .vmem, ⟨94, _⟩ => ⟨S25000x32, .f32⟩
  | .local _ .vmem, ⟨95, _⟩ => ⟨S25000x2, .f32⟩
  | .local _ .vmem, ⟨96, _⟩ => ⟨S25000x2, .f32⟩
  | .local _ .vmem, ⟨97, _⟩ => ⟨S32x32, .f32⟩
  | .local _ .vmem, ⟨98, _⟩ => ⟨S1x32, .f32⟩
  | .local _ .vmem, ⟨99, _⟩ => ⟨S32x2, .f32⟩
  | .local _ .vmem, ⟨100, _⟩ => ⟨S2, .f32⟩
  | .local _ .vmem, ⟨101, _⟩ => ⟨S25000x32, .f32⟩
  | .local _ .vmem, ⟨102, _⟩ => ⟨S25000x32, .f32⟩
  | .local _ .vmem, ⟨103, _⟩ => ⟨S25000x2, .f32⟩
  | .local _ .vmem, ⟨104, _⟩ => ⟨S25000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_cst : Ref sig .tc := ⟨.hbm, 86, rfl⟩
abbrev main_call0_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72_0 : Ref sig .tc := ⟨.hbm, 102, rfl⟩
abbrev main_v72_1 : Ref sig .tc := ⟨.hbm, 103, rfl⟩
abbrev main_v73 : Ref sig .tc := ⟨.hbm, 104, rfl⟩
abbrev main_c_9 : Ref sig .tc := ⟨.hbm, 105, rfl⟩
abbrev main_v74 : Ref sig .tc := ⟨.hbm, 106, rfl⟩
abbrev main_v75 : Ref sig .tc := ⟨.hbm, 107, rfl⟩
abbrev main_c_10 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_11 : Ref sig .tc := ⟨.hbm, 114, rfl⟩
abbrev main_v81 : Ref sig .tc := ⟨.hbm, 115, rfl⟩
abbrev main_v82 : Ref sig .tc := ⟨.hbm, 116, rfl⟩
abbrev main_c_12 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_13 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_14 : Ref sig .tc := ⟨.hbm, 142, rfl⟩
abbrev main_v106 : Ref sig .tc := ⟨.hbm, 143, rfl⟩
abbrev main_v107 : Ref sig .tc := ⟨.hbm, 144, rfl⟩
abbrev main_cst_15 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_call1_cst : Ref sig .tc := ⟨.hbm, 159, rfl⟩
abbrev main_call1_v0 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135_0 : Ref sig .tc := ⟨.hbm, 175, rfl⟩
abbrev main_v135_1 : Ref sig .tc := ⟨.hbm, 176, rfl⟩
abbrev main_v136 : Ref sig .tc := ⟨.hbm, 177, rfl⟩
abbrev main_c_16 : Ref sig .tc := ⟨.hbm, 178, rfl⟩
abbrev main_v137 : Ref sig .tc := ⟨.hbm, 179, rfl⟩
abbrev main_v138 : Ref sig .tc := ⟨.hbm, 180, rfl⟩
abbrev main_c_17 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_c_18 : Ref sig .tc := ⟨.hbm, 187, rfl⟩
abbrev main_v144 : Ref sig .tc := ⟨.hbm, 188, rfl⟩
abbrev main_v145 : Ref sig .tc := ⟨.hbm, 189, rfl⟩
abbrev main_c_19 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_20 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_21 : Ref sig .tc := ⟨.hbm, 215, rfl⟩
abbrev main_v169 : Ref sig .tc := ⟨.hbm, 216, rfl⟩
abbrev main_v170 : Ref sig .tc := ⟨.hbm, 217, rfl⟩
abbrev main_cst_22 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_call2_cst : Ref sig .tc := ⟨.hbm, 232, rfl⟩
abbrev main_call2_v0 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198_0 : Ref sig .tc := ⟨.hbm, 248, rfl⟩
abbrev main_v198_1 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg8_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg1_1 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg5_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg6_1 : Ref sig .tc := ⟨.vmem, 67, rfl⟩
abbrev cc5_stg7_0 : Ref sig .tc := ⟨.vmem, 68, rfl⟩
abbrev cc5_stg7_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg1_1 : Ref sig .tc := ⟨.vmem, 73, rfl⟩
abbrev cc6_stg2_0 : Ref sig .tc := ⟨.vmem, 74, rfl⟩
abbrev cc6_stg2_1 : Ref sig .tc := ⟨.vmem, 75, rfl⟩
abbrev cc6_stg3_0 : Ref sig .tc := ⟨.vmem, 76, rfl⟩
abbrev cc6_stg3_1 : Ref sig .tc := ⟨.vmem, 77, rfl⟩
abbrev cc6_stg4_0 : Ref sig .tc := ⟨.vmem, 78, rfl⟩
abbrev cc6_stg5_0 : Ref sig .tc := ⟨.vmem, 79, rfl⟩
abbrev cc6_stg6_0 : Ref sig .tc := ⟨.vmem, 80, rfl⟩
abbrev cc6_stg7_0 : Ref sig .tc := ⟨.vmem, 81, rfl⟩
abbrev cc6_stg8_0 : Ref sig .tc := ⟨.vmem, 82, rfl⟩
abbrev cc6_stg8_1 : Ref sig .tc := ⟨.vmem, 83, rfl⟩
abbrev cc7_stg0_0 : Ref sig .tc := ⟨.vmem, 84, rfl⟩
abbrev cc7_stg0_1 : Ref sig .tc := ⟨.vmem, 85, rfl⟩
abbrev cc7_stg1_0 : Ref sig .tc := ⟨.vmem, 86, rfl⟩
abbrev cc7_stg1_1 : Ref sig .tc := ⟨.vmem, 87, rfl⟩
abbrev cc7_stg2_0 : Ref sig .tc := ⟨.vmem, 88, rfl⟩
abbrev cc7_stg3_0 : Ref sig .tc := ⟨.vmem, 89, rfl⟩
abbrev cc7_stg4_0 : Ref sig .tc := ⟨.vmem, 90, rfl⟩
abbrev cc7_stg5_0 : Ref sig .tc := ⟨.vmem, 91, rfl⟩
abbrev cc7_stg5_1 : Ref sig .tc := ⟨.vmem, 92, rfl⟩
abbrev cc8_stg0_0 : Ref sig .tc := ⟨.vmem, 93, rfl⟩
abbrev cc8_stg0_1 : Ref sig .tc := ⟨.vmem, 94, rfl⟩
abbrev cc8_stg1_0 : Ref sig .tc := ⟨.vmem, 95, rfl⟩
abbrev cc8_stg1_1 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg6_0 : Ref sig .tc := ⟨.vmem, 101, rfl⟩
abbrev cc8_stg6_1 : Ref sig .tc := ⟨.vmem, 102, rfl⟩
abbrev cc8_stg7_0 : Ref sig .tc := ⟨.vmem, 103, rfl⟩
abbrev cc8_stg7_1 : Ref sig .tc := ⟨.vmem, 104, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem8_1 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem5_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem6_0 : DmaSem sig := 66
abbrev cc5_sem6_1 : DmaSem sig := 67
abbrev cc5_sem7_0 : DmaSem sig := 68
abbrev cc5_sem7_1 : DmaSem sig := 69
abbrev cc6_sem0_0 : DmaSem sig := 70
abbrev cc6_sem0_1 : DmaSem sig := 71
abbrev cc6_sem1_0 : DmaSem sig := 72
abbrev cc6_sem1_1 : DmaSem sig := 73
abbrev cc6_sem2_0 : DmaSem sig := 74
abbrev cc6_sem2_1 : DmaSem sig := 75
abbrev cc6_sem3_0 : DmaSem sig := 76
abbrev cc6_sem3_1 : DmaSem sig := 77
abbrev cc6_sem4_0 : DmaSem sig := 78
abbrev cc6_sem5_0 : DmaSem sig := 79
abbrev cc6_sem6_0 : DmaSem sig := 80
abbrev cc6_sem7_0 : DmaSem sig := 81
abbrev cc6_sem8_0 : DmaSem sig := 82
abbrev cc6_sem8_1 : DmaSem sig := 83
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem3_0 : DmaSem sig := 89
abbrev cc7_sem4_0 : DmaSem sig := 90
abbrev cc7_sem5_0 : DmaSem sig := 91
abbrev cc7_sem5_1 : DmaSem sig := 92
abbrev cc8_sem0_0 : DmaSem sig := 93
abbrev cc8_sem0_1 : DmaSem sig := 94
abbrev cc8_sem1_0 : DmaSem sig := 95
abbrev cc8_sem1_1 : DmaSem sig := 96
abbrev cc8_sem2_0 : DmaSem sig := 97
abbrev cc8_sem3_0 : DmaSem sig := 98
abbrev cc8_sem4_0 : DmaSem sig := 99
abbrev cc8_sem5_0 : DmaSem sig := 100
abbrev cc8_sem6_0 : DmaSem sig := 101
abbrev cc8_sem6_1 : DmaSem sig := 102
abbrev cc8_sem7_0 : DmaSem sig := 103
abbrev cc8_sem7_1 : DmaSem sig := 104

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S50000x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50000x34 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S50000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S34x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S34x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S50000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x34 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S25000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S34x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S25000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S25000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S25000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S25000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S50000x34 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S50000x34 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S50000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S50000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S34x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S34x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S50000x32 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S25000x34 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S25000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S34x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S25000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S25000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S25000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S25000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S25000x2 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S50000x34 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S50000x34 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S50000x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S50000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S34x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S34x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S2x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S50000x32 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S25000x34 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S25000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S34x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S25000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S25000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S25000x2 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S32x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S32x2 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S2 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S25000x32 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S25000x2 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  bcast_S_S100000x2 : S_.BroadcastsInDim S100000x2 (![] : Fin 0 → Fin S100000x2.rank)
  bcast_S_S1 : S_.BroadcastsInDim S1 (![] : Fin 0 → Fin S1.rank)
  bcast_S_S100000 : S_.BroadcastsInDim S100000 (![] : Fin 0 → Fin S100000.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1x32 : S_.BroadcastsInDim S1x32 (![] : Fin 0 → Fin S1x32.rank)
  bcast_S3200000_S3200000x1_0 : S3200000.BroadcastsInDim S3200000x1 (![0] : Fin 1 → Fin S3200000x1.rank)
  concatenates_S100000x2_S100000x32_S100000x34_d1 : Shape.Concatenates [S100000x2, S100000x32] S100000x34 1
  bcast_S_S3200000 : S_.BroadcastsInDim S3200000 (![] : Fin 0 → Fin S3200000.rank)
  slices_S3x70x32_S1x70x32_0_0_0 : S3x70x32.Slices ![0, 0, 0] S1x70x32
  shapeCasts_S1x70x32_S70x32 : S1x70x32.ShapeCasts S70x32
  slices_S70x32_S34x32_0_0 : S70x32.Slices ![0, 0] S34x32
  slices_S70x32_S34x32_34_0 : S70x32.Slices ![34, 0] S34x32
  slices_S70x32_S2x32_68_0 : S70x32.Slices ![68, 0] S2x32
  slices_S3x32_S1x32_0_0 : S3x32.Slices ![0, 0] S1x32
  shapeCasts_S1x32_S32 : S1x32.ShapeCasts S32
  inb_S50000x34_S50000x34_0_0 : ∀ a, (![0, 0] : Fin 2 → Nat) a + S50000x34.size a ≤ S50000x34.size a
  h_S50000x34 : 0 < S50000x34.numel
  shapeCasts_S50000x34_S50000x34 : S50000x34.ShapeCasts S50000x34
  bitsLt_bf16_f32 : FTy.bits .bf16 < FTy.bits .f32
  inb_S50000x2_S50000x2_0_0 : ∀ a, (![0, 0] : Fin 2 → Nat) a + S50000x2.size a ≤ S50000x2.size a
  h_S50000x2 : 0 < S50000x2.numel
  inb_S34x32_S34x32_0_0 : ∀ a, (![0, 0] : Fin 2 → Nat) a + S34x32.size a ≤ S34x32.size a
  h_S34x32 : 0 < S34x32.numel
  shapeCasts_S34x32_S34x32 : S34x32.ShapeCasts S34x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S50000x32 : S1x32.Broadcasts S50000x32
  inb_S50000x1_S50000x1_0_0 : ∀ a, (![0, 0] : Fin 2 → Nat) a + S50000x1.size a ≤ S50000x1.size a
  h_S50000x1 : 0 < S50000x1.numel
  shapeCasts_S50000x1_S50000x1 : S50000x1.ShapeCasts S50000x1
  broadcasts_S50000x1_S50000x32 : S50000x1.Broadcasts S50000x32
  inb_S50000x32_S50000x32_0_0 : ∀ a, (![0, 0] : Fin 2 → Nat) a + S50000x32.size a ≤ S50000x32.size a
  h_S50000x32 : 0 < S50000x32.numel
  bcast_S_S100000x32 : S_.BroadcastsInDim S100000x32 (![] : Fin 0 → Fin S100000x32.rank)
  slices_S3x66x32_S1x66x32_0_0_0 : S3x66x32.Slices ![0, 0, 0] S1x66x32
  shapeCasts_S1x66x32_S66x32 : S1x66x32.ShapeCasts S66x32
  slices_S66x32_S34x32_0_0 : S66x32.Slices ![0, 0] S34x32
  slices_S66x32_S32x32_34_0 : S66x32.Slices ![34, 0] S32x32
  inb_S25000x34_S25000x34_0_0 : ∀ a, (![0, 0] : Fin 2 → Nat) a + S25000x34.size a ≤ S25000x34.size a
  h_S25000x34 : 0 < S25000x34.numel
  shapeCasts_S25000x34_S25000x34 : S25000x34.ShapeCasts S25000x34
  inb_S25000x32_S25000x32_0_0 : ∀ a, (![0, 0] : Fin 2 → Nat) a + S25000x32.size a ≤ S25000x32.size a
  h_S25000x32 : 0 < S25000x32.numel
  shapeCasts_S25000x32_S25000x32 : S25000x32.ShapeCasts S25000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S1x32_S25000x32 : S1x32.Broadcasts S25000x32
  reducesTo_S100000x32_S32_d0 : S100000x32.ReducesTo [0] S32
  h_S_ : 0 < S_.numel
  slices_S3x64x32_S1x64x32_0_0_0 : S3x64x32.Slices ![0, 0, 0] S1x64x32
  shapeCasts_S1x64x32_S64x32 : S1x64x32.ShapeCasts S64x32
  slices_S64x32_S32x32_0_0 : S64x32.Slices ![0, 0] S32x32
  slices_S64x32_S32x32_32_0 : S64x32.Slices ![32, 0] S32x32
  slices_S3x32x2_S1x32x2_0_0_0 : S3x32x2.Slices ![0, 0, 0] S1x32x2
  shapeCasts_S1x32x2_S32x2 : S1x32x2.ShapeCasts S32x2
  slices_S3x2_S1x2_0_0 : S3x2.Slices ![0, 0] S1x2
  shapeCasts_S1x2_S2 : S1x2.ShapeCasts S2
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S2_S2_0 : ∀ a, (![0] : Fin 1 → Nat) a + S2.size a ≤ S2.size a
  h_S2 : 0 < S2.numel
  shapeCasts_S2_S2 : S2.ShapeCasts S2
  shapeCasts_S2_S1x2 : S2.ShapeCasts S1x2
  broadcasts_S1x2_S25000x2 : S1x2.Broadcasts S25000x2
  inb_S25000x2_S25000x2_0_0 : ∀ a, (![0, 0] : Fin 2 → Nat) a + S25000x2.size a ≤ S25000x2.size a
  h_S25000x2 : 0 < S25000x2.numel
  shapeCasts_S25000x2_S25000x2 : S25000x2.ShapeCasts S25000x2
  slices_S3x70x32_S1x70x32_1_0_0 : S3x70x32.Slices ![1, 0, 0] S1x70x32
  slices_S3x32_S1x32_1_0 : S3x32.Slices ![1, 0] S1x32
  slices_S3x66x32_S1x66x32_1_0_0 : S3x66x32.Slices ![1, 0, 0] S1x66x32
  slices_S3x64x32_S1x64x32_1_0_0 : S3x64x32.Slices ![1, 0, 0] S1x64x32
  slices_S3x32x2_S1x32x2_1_0_0 : S3x32x2.Slices ![1, 0, 0] S1x32x2
  slices_S3x2_S1x2_1_0 : S3x2.Slices ![1, 0] S1x2
  slices_S3x70x32_S1x70x32_2_0_0 : S3x70x32.Slices ![2, 0, 0] S1x70x32
  slices_S3x32_S1x32_2_0 : S3x32.Slices ![2, 0] S1x32
  slices_S3x66x32_S1x66x32_2_0_0 : S3x66x32.Slices ![2, 0, 0] S1x66x32
  slices_S3x64x32_S1x64x32_2_0_0 : S3x64x32.Slices ![2, 0, 0] S1x64x32
  slices_S3x32x2_S1x32x2_2_0_0 : S3x32x2.Slices ![2, 0, 0] S1x32x2
  slices_S3x2_S1x2_2_0 : S3x2.Slices ![2, 0] S1x2
  scatter_S100000x2_S1_S100000_0_1_1_0_wf : ScatterDims.WF S100000x2 S1 S100000 [0] [1] [1] 0
  dot_S100000x2_S2x32_S100000x32_1_0_0_1_n_n_wf : DotDims.WF S100000x2 S2x32 S100000x32 [1] [0] [0] [1] [] []
  gather_S100000x34_S3200000x1_S3200000x34_1_0_n_n_0_1_134_wf : GatherDims.WF S100000x34 S3200000x1 S3200000x34 [1] [0] [] [0] [] 1 ![1, 34]
  dot_S50000x34_S34x32_S50000x32_1_0_0_1_n_n_wf : DotDims.WF S50000x34 S34x32 S50000x32 [1] [0] [0] [1] [] []
  dot_S50000x2_S2x32_S50000x32_1_0_0_1_n_n_wf : DotDims.WF S50000x2 S2x32 S50000x32 [1] [0] [0] [1] [] []
  scatter_S100000x32_S3200000x1_S3200000x32_1_0_0_1_wf : ScatterDims.WF S100000x32 S3200000x1 S3200000x32 [1] [0] [0] 1
  dot_S25000x34_S34x32_S25000x32_1_0_0_1_n_n_wf : DotDims.WF S25000x34 S34x32 S25000x32 [1] [0] [0] [1] [] []
  dot_S25000x32_S32x32_S25000x32_1_0_0_1_n_n_wf : DotDims.WF S25000x32 S32x32 S25000x32 [1] [0] [0] [1] [] []
  dot_S1x32_S32x32_S1x32_1_0_0_1_n_n_wf : DotDims.WF S1x32 S32x32 S1x32 [1] [0] [0] [1] [] []
  dot_S25000x32_S32x2_S25000x2_1_0_0_1_n_n_wf : DotDims.WF S25000x32 S32x2 S25000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x34.size a ≤ S3200000x34.size a
  hwx0_0 : ∀ i : grid0.Coords, EltTy.bits .f32 = 32 ∨ (Rect.block (s := S3200000x34) S50000x34.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S50000x34.size a ≤ S3200000x34.size a
  hwx0_1 : ∀ i : grid0.Coords, EltTy.bits .f32 = 32 ∨ (Rect.block (s := S3200000x34) S50000x34.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S50000x2.size a ≤ S3200000x2.size a
  hwx0_2 : ∀ i : grid0.Coords, EltTy.bits .f32 = 32 ∨ (Rect.block (s := S3200000x2) S50000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S50000x1.size a ≤ S3200000x1.size a
  hwx0_3 : ∀ i : grid0.Coords, EltTy.bits .f32 = 32 ∨ (Rect.block (s := S3200000x1) S50000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S34x32.size a ≤ S34x32.size a
  hwx0_4 : ∀ i : grid0.Coords, EltTy.bits .f32 = 32 ∨ (Rect.block (s := S34x32) S34x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S34x32.size a ≤ S34x32.size a
  hwx0_5 : ∀ i : grid0.Coords, EltTy.bits .f32 = 32 ∨ (Rect.block (s := S34x32) S34x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x32.size a ≤ S2x32.size a
  hwx0_6 : ∀ i : grid0.Coords, EltTy.bits .f32 = 32 ∨ (Rect.block (s := S2x32) S2x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S50000x32.size a ≤ S3200000x32.size a
  hwx0_8 : ∀ i : grid0.Coords, EltTy.bits .f32 = 32 ∨ (Rect.block (s := S3200000x32) S50000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x34.size a ≤ S100000x34.size a
  hwx1_0 : ∀ i : grid1.Coords, EltTy.bits .f32 = 32 ∨ (Rect.block (s := S100000x34) S25000x34.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S25000x32.size a ≤ S100000x32.size a
  hwx1_1 : ∀ i : grid1.Coords, EltTy.bits .f32 = 32 ∨ (Rect.block (s := S100000x32) S25000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S34x32.size a ≤ S34x32.size a
  hwx1_2 : ∀ i : grid1.Coords, EltTy.bits .f32 = 32 ∨ (Rect.block (s := S34x32) S34x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S25000x32.size a ≤ S100000x32.size a
  hwx1_5 : ∀ i : grid1.Coords, EltTy.bits .f32 = 32 ∨ (Rect.block (s := S100000x32) S25000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x32.size a ≤ S100000x32.size a
  hwx2_0 : ∀ i : grid2.Coords, EltTy.bits .f32 = 32 ∨ (Rect.block (s := S100000x32) S25000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S25000x2.size a ≤ S100000x2.size a
  hwx2_1 : ∀ i : grid2.Coords, EltTy.bits .f32 = 32 ∨ (Rect.block (s := S100000x2) S25000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x2.size a ≤ S32x2.size a
  hwx2_4 : ∀ i : grid2.Coords, EltTy.bits .f32 = 32 ∨ (Rect.block (s := S32x2) S32x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2.size a ≤ S2.size a
  hwx2_5 : ∀ i : grid2.Coords, EltTy.bits .f32 = 32 ∨ (Rect.block (s := S2) S2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S25000x32.size a ≤ S100000x32.size a
  hwx2_6 : ∀ i : grid2.Coords, EltTy.bits .f32 = 32 ∨ (Rect.block (s := S100000x32) S25000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S25000x2.size a ≤ S100000x2.size a
  hwx2_7 : ∀ i : grid2.Coords, EltTy.bits .f32 = 32 ∨ (Rect.block (s := S100000x2) S25000x2.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S50000x34.size a ≤ S3200000x34.size a
  hwx3_0 : ∀ i : grid3.Coords, EltTy.bits .f32 = 32 ∨ (Rect.block (s := S3200000x34) S50000x34.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S50000x34.size a ≤ S3200000x34.size a
  hwx3_1 : ∀ i : grid3.Coords, EltTy.bits .f32 = 32 ∨ (Rect.block (s := S3200000x34) S50000x34.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S50000x2.size a ≤ S3200000x2.size a
  hwx3_2 : ∀ i : grid3.Coords, EltTy.bits .f32 = 32 ∨ (Rect.block (s := S3200000x2) S50000x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S50000x1.size a ≤ S3200000x1.size a
  hwx3_3 : ∀ i : grid3.Coords, EltTy.bits .f32 = 32 ∨ (Rect.block (s := S3200000x1) S50000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S34x32.size a ≤ S34x32.size a
  hwx3_4 : ∀ i : grid3.Coords, EltTy.bits .f32 = 32 ∨ (Rect.block (s := S34x32) S34x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S34x32.size a ≤ S34x32.size a
  hwx3_5 : ∀ i : grid3.Coords, EltTy.bits .f32 = 32 ∨ (Rect.block (s := S34x32) S34x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2x32.size a ≤ S2x32.size a
  hwx3_6 : ∀ i : grid3.Coords, EltTy.bits .f32 = 32 ∨ (Rect.block (s := S2x32) S2x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32.size a ≤ S32.size a
  hwx3_7 : ∀ i : grid3.Coords, EltTy.bits .f32 = 32 ∨ (Rect.block (s := S32) S32.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S50000x32.size a ≤ S3200000x32.size a
  hwx3_8 : ∀ i : grid3.Coords, EltTy.bits .f32 = 32 ∨ (Rect.block (s := S3200000x32) S50000x32.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S25000x34.size a ≤ S100000x34.size a
  hwx4_0 : ∀ i : grid4.Coords, EltTy.bits .f32 = 32 ∨ (Rect.block (s := S100000x34) S25000x34.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S25000x32.size a ≤ S100000x32.size a
  hwx4_1 : ∀ i : grid4.Coords, EltTy.bits .f32 = 32 ∨ (Rect.block (s := S100000x32) S25000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S34x32.size a ≤ S34x32.size a
  hwx4_2 : ∀ i : grid4.Coords, EltTy.bits .f32 = 32 ∨ (Rect.block (s := S34x32) S34x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S25000x32.size a ≤ S100000x32.size a
  hwx4_5 : ∀ i : grid4.Coords, EltTy.bits .f32 = 32 ∨ (Rect.block (s := S100000x32) S25000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S25000x32.size a ≤ S100000x32.size a
  hwx5_0 : ∀ i : grid5.Coords, EltTy.bits .f32 = 32 ∨ (Rect.block (s := S100000x32) S25000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S25000x2.size a ≤ S100000x2.size a
  hwx5_1 : ∀ i : grid5.Coords, EltTy.bits .f32 = 32 ∨ (Rect.block (s := S100000x2) S25000x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x2.size a ≤ S32x2.size a
  hwx5_4 : ∀ i : grid5.Coords, EltTy.bits .f32 = 32 ∨ (Rect.block (s := S32x2) S32x2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S2.size a ≤ S2.size a
  hwx5_5 : ∀ i : grid5.Coords, EltTy.bits .f32 = 32 ∨ (Rect.block (s := S2) S2.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S25000x32.size a ≤ S100000x32.size a
  hwx5_6 : ∀ i : grid5.Coords, EltTy.bits .f32 = 32 ∨ (Rect.block (s := S100000x32) S25000x32.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S25000x2.size a ≤ S100000x2.size a
  hwx5_7 : ∀ i : grid5.Coords, EltTy.bits .f32 = 32 ∨ (Rect.block (s := S100000x2) S25000x2.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S50000x34.size a ≤ S3200000x34.size a
  hwx6_0 : ∀ i : grid6.Coords, EltTy.bits .f32 = 32 ∨ (Rect.block (s := S3200000x34) S50000x34.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S50000x34.size a ≤ S3200000x34.size a
  hwx6_1 : ∀ i : grid6.Coords, EltTy.bits .f32 = 32 ∨ (Rect.block (s := S3200000x34) S50000x34.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S50000x2.size a ≤ S3200000x2.size a
  hwx6_2 : ∀ i : grid6.Coords, EltTy.bits .f32 = 32 ∨ (Rect.block (s := S3200000x2) S50000x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S50000x1.size a ≤ S3200000x1.size a
  hwx6_3 : ∀ i : grid6.Coords, EltTy.bits .f32 = 32 ∨ (Rect.block (s := S3200000x1) S50000x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S34x32.size a ≤ S34x32.size a
  hwx6_4 : ∀ i : grid6.Coords, EltTy.bits .f32 = 32 ∨ (Rect.block (s := S34x32) S34x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S34x32.size a ≤ S34x32.size a
  hwx6_5 : ∀ i : grid6.Coords, EltTy.bits .f32 = 32 ∨ (Rect.block (s := S34x32) S34x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S2x32.size a ≤ S2x32.size a
  hwx6_6 : ∀ i : grid6.Coords, EltTy.bits .f32 = 32 ∨ (Rect.block (s := S2x32) S2x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32.size a ≤ S32.size a
  hwx6_7 : ∀ i : grid6.Coords, EltTy.bits .f32 = 32 ∨ (Rect.block (s := S32) S32.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S50000x32.size a ≤ S3200000x32.size a
  hwx6_8 : ∀ i : grid6.Coords, EltTy.bits .f32 = 32 ∨ (Rect.block (s := S3200000x32) S50000x32.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S25000x34.size a ≤ S100000x34.size a
  hwx7_0 : ∀ i : grid7.Coords, EltTy.bits .f32 = 32 ∨ (Rect.block (s := S100000x34) S25000x34.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S25000x32.size a ≤ S100000x32.size a
  hwx7_1 : ∀ i : grid7.Coords, EltTy.bits .f32 = 32 ∨ (Rect.block (s := S100000x32) S25000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S34x32.size a ≤ S34x32.size a
  hwx7_2 : ∀ i : grid7.Coords, EltTy.bits .f32 = 32 ∨ (Rect.block (s := S34x32) S34x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x32.size a ≤ S32x32.size a
  hwx7_3 : ∀ i : grid7.Coords, EltTy.bits .f32 = 32 ∨ (Rect.block (s := S32x32) S32x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32.size a ≤ S32.size a
  hwx7_4 : ∀ i : grid7.Coords, EltTy.bits .f32 = 32 ∨ (Rect.block (s := S32) S32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S25000x32.size a ≤ S100000x32.size a
  hwx7_5 : ∀ i : grid7.Coords, EltTy.bits .f32 = 32 ∨ (Rect.block (s := S100000x32) S25000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S25000x32.size a ≤ S100000x32.size a
  hwx8_0 : ∀ i : grid8.Coords, EltTy.bits .f32 = 32 ∨ (Rect.block (s := S100000x32) S25000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S25000x2.size a ≤ S100000x2.size a
  hwx8_1 : ∀ i : grid8.Coords, EltTy.bits .f32 = 32 ∨ (Rect.block (s := S100000x2) S25000x2.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S32x32.size a ≤ S32x32.size a
  hwx8_2 : ∀ i : grid8.Coords, EltTy.bits .f32 = 32 ∨ (Rect.block (s := S32x32) S32x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S32x2.size a ≤ S32x2.size a
  hwx8_4 : ∀ i : grid8.Coords, EltTy.bits .f32 = 32 ∨ (Rect.block (s := S32x2) S32x2.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S2.size a ≤ S2.size a
  hwx8_5 : ∀ i : grid8.Coords, EltTy.bits .f32 = 32 ∨ (Rect.block (s := S2) S2.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S25000x32.size a ≤ S100000x32.size a
  hwx8_6 : ∀ i : grid8.Coords, EltTy.bits .f32 = 32 ∨ (Rect.block (s := S100000x32) S25000x32.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S25000x2.size a ≤ S100000x2.size a
  hwx8_7 : ∀ i : grid8.Coords, EltTy.bits .f32 = 32 ∨ (Rect.block (s := S100000x2) S25000x2.size (cc8_transform_7 i) (hinb8_7 i)).WholeWords (EltTy.packing .f32)

variable [Facts₀]

def scatter_S100000x2_S1_S100000_0_1_1_0 : ScatterDims S100000x2 S1 S100000 where
  updateWindowDims := [0]
  insertedWindowDims := [1]
  scatterDimsToOperandDims := [1]
  indexVectorDim := 0
  wf := scatter_S100000x2_S1_S100000_0_1_1_0_wf
def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def gather_S100000x34_S3200000x1_S3200000x34_1_0_n_n_0_1_134 : GatherDims S100000x34 S3200000x1 S3200000x34 where
  offsetDims := [1]
  collapsedSliceDims := [0]
  operandBatchingDims := []
  startIndicesBatchingDims := []
  startIndexMap := [0]
  indexVectorDim := 1
  sliceSizes := ![1, 34]
  wf := gather_S100000x34_S3200000x1_S3200000x34_1_0_n_n_0_1_134_wf
def dot_S50000x34_S34x32_S50000x32_1_0_0_1_n_n : DotDims S50000x34 S34x32 S50000x32 where
  lhsContracting := [1]
  rhsContracting := [0]
  lhsNonContracting := [0]
  rhsNonContracting := [1]
  lhsBatch := []
  rhsBatch := []
  wf := dot_S50000x34_S34x32_S50000x32_1_0_0_1_n_n_wf
def dot_S50000x2_S2x32_S50000x32_1_0_0_1_n_n : DotDims S50000x2 S2x32 S50000x32 where
  lhsContracting := [1]
  rhsContracting := [0]
  lhsNonContracting := [0]
  rhsNonContracting := [1]
  lhsBatch := []
  rhsBatch := []
  wf := dot_S50000x2_S2x32_S50000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S25000x34_S34x32_S25000x32_1_0_0_1_n_n : DotDims S25000x34 S34x32 S25000x32 where
  lhsContracting := [1]
  rhsContracting := [0]
  lhsNonContracting := [0]
  rhsNonContracting := [1]
  lhsBatch := []
  rhsBatch := []
  wf := dot_S25000x34_S34x32_S25000x32_1_0_0_1_n_n_wf
def dot_S25000x32_S32x32_S25000x32_1_0_0_1_n_n : DotDims S25000x32 S32x32 S25000x32 where
  lhsContracting := [1]
  rhsContracting := [0]
  lhsNonContracting := [0]
  rhsNonContracting := [1]
  lhsBatch := []
  rhsBatch := []
  wf := dot_S25000x32_S32x32_S25000x32_1_0_0_1_n_n_wf
def dot_S1x32_S32x32_S1x32_1_0_0_1_n_n : DotDims S1x32 S32x32 S1x32 where
  lhsContracting := [1]
  rhsContracting := [0]
  lhsNonContracting := [0]
  rhsNonContracting := [1]
  lhsBatch := []
  rhsBatch := []
  wf := dot_S1x32_S32x32_S1x32_1_0_0_1_n_n_wf
def dot_S25000x32_S32x2_S25000x2_1_0_0_1_n_n : DotDims S25000x32 S32x2 S25000x2 where
  lhsContracting := [1]
  rhsContracting := [0]
  lhsNonContracting := [0]
  rhsNonContracting := [1]
  lhsBatch := []
  rhsBatch := []
  wf := dot_S25000x32_S32x2_S25000x2_1_0_0_1_n_n_wf

abbrev win0_0 : Pipeline.Window sig grid0 :=
  Pipeline.Window.ofSpec (Memref.whole main_v17) S50000x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S50000x34.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S50000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S50000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S34x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S34x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S50000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S25000x34.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S25000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S34x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S25000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S25000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S25000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S32x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72_0) S25000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_1) S25000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v80) S50000x34.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S50000x34.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S50000x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S50000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v90) S34x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S34x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v92) S2x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v94) S32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v95) S50000x32.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v73) S25000x34.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S25000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v101) S34x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v104) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105) S25000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v105) S25000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72_1) S25000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v124) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v130) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v132) S32x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v134) S2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v135_0) S25000x32.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v135_1) S25000x2.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v143) S50000x34.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v150) S50000x34.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg3) S50000x2.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v9) S50000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v153) S34x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v154) S34x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v155) S2x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v157) S32.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v158) S50000x32.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v136) S25000x34.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v161) S25000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v164) S34x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v165) S32x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v167) S32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v168) S25000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v168) S25000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v135_1) S25000x2.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v187) S32x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v193) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v195) S32x2.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v197) S2.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v198_0) S25000x32.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v198_1) S25000x2.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S100000x2 : Shape := ⟨2, ![100000, 2]⟩
abbrev S3200000 : Shape := ⟨1, ![3200000]⟩
abbrev S3200000x2 : Shape := ⟨2, ![3200000, 2]⟩
abbrev S2x32 : Shape := ⟨2, ![2, 32]⟩
abbrev S32 : Shape := ⟨1, ![32]⟩
abbrev S3x70x32 : Shape := ⟨3, ![3, 70, 32]⟩
abbrev S3x32 : Shape := ⟨2, ![3, 32]⟩
abbrev S3x66x32 : Shape := ⟨3, ![3, 66, 32]⟩
abbrev S3x64x32 : Shape := ⟨3, ![3, 64, 32]⟩
abbrev S3x32x2 : Shape := ⟨3, ![3, 32, 2]⟩
abbrev S3x2 : Shape := ⟨2, ![3, 2]⟩
abbrev S_ : Shape := ⟨0, ![]⟩
abbrev S1 : Shape := ⟨1, ![1]⟩
abbrev S100000 : Shape := ⟨1, ![100000]⟩
abbrev S100000x32 : Shape := ⟨2, ![100000, 32]⟩
abbrev S1x32 : Shape := ⟨2, ![1, 32]⟩
abbrev S100000x34 : Shape := ⟨2, ![100000, 34]⟩
abbrev S3200000x1 : Shape := ⟨2, ![3200000, 1]⟩
abbrev S3200000x34 : Shape := ⟨2, ![3200000, 34]⟩
abbrev S3200000x70 : Shape := ⟨2, ![3200000, 70]⟩
abbrev S1x70x32 : Shape := ⟨3, ![1, 70, 32]⟩
abbrev S70x32 : Shape := ⟨2, ![70, 32]⟩
abbrev S3200000x32 : Shape := ⟨2, ![3200000, 32]⟩
abbrev S100000x66 : Shape := ⟨2, ![100000, 66]⟩
abbrev S1x66x32 : Shape := ⟨3, ![1, 66, 32]⟩
abbrev S66x32 : Shape := ⟨2, ![66, 32]⟩
abbrev S1x64 : Shape := ⟨2, ![1, 64]⟩
abbrev S1x64x32 : Shape := ⟨3, ![1, 64, 32]⟩
abbrev S64x32 : Shape := ⟨2, ![64, 32]⟩
abbrev S100000x64 : Shape := ⟨2, ![100000, 64]⟩
abbrev S1x32x2 : Shape := ⟨3, ![1, 32, 2]⟩
abbrev S32x2 : Shape := ⟨2, ![32, 2]⟩
abbrev S1x2 : Shape := ⟨2, ![1, 2]⟩
abbrev S2 : Shape := ⟨1, ![2]⟩

abbrev nBuf : Space → Nat
  | .hbm => 297
  | .vmem => 0
  | .smem => 0
  | _ => 0

abbrev hbmTy0_0 (i : Nat) : BufTy := match i % 128 with
  | 0 => ⟨S100000x2, .f32⟩
  | 1 => ⟨S3200000, .i32⟩
  | 2 => ⟨S3200000, .i32⟩
  | 3 => ⟨S3200000x2, .f32⟩
  | 4 => ⟨S3200000, .f32⟩
  | 5 => ⟨S2x32, .f32⟩
  | 6 => ⟨S32, .f32⟩
  | 7 => ⟨S3x70x32, .f32⟩
  | 8 => ⟨S3x32, .f32⟩
  | 9 => ⟨S3x66x32, .f32⟩
  | 10 => ⟨S3x32, .f32⟩
  | 11 => ⟨S3x64x32, .f32⟩
  | 12 => ⟨S3x32, .f32⟩
  | 13 => ⟨S3x64x32, .f32⟩
  | 14 => ⟨S3x32, .f32⟩
  | 15 => ⟨S3x32x2, .f32⟩
  | 16 => ⟨S3x2, .f32⟩
  | 17 => ⟨S_, .f32⟩
  | 18 => ⟨S100000x2, .f32⟩
  | 19 => ⟨S_, .i32⟩
  | 20 => ⟨S1, .i32⟩
  | 21 => ⟨S_, .f32⟩
  | 22 => ⟨S100000, .f32⟩
  | 23 => ⟨S100000x2, .f32⟩
  | 24 => ⟨S100000x32, .f32⟩
  | 25 => ⟨S1x32, .f32⟩
  | 26 => ⟨S100000x32, .f32⟩
  | 27 => ⟨S100000x32, .f32⟩
  | 28 => ⟨S_, .f32⟩
  | 29 => ⟨S1x32, .f32⟩
  | 30 => ⟨S100000x34, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x34, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x34, .f32⟩
  | 49 => ⟨S3200000x70, .f32⟩
  | 50 => ⟨S1x70x32, .f32⟩
  | 51 => ⟨S70x32, .f32⟩
  | 52 => ⟨S3200000x32, .f32⟩
  | 53 => ⟨S1x32, .f32⟩
  | 54 => ⟨S32, .f32⟩
  | 55 => ⟨S1x32, .f32⟩
  | 56 => ⟨S3200000x32, .f32⟩
  | 57 => ⟨S3200000x32, .f32⟩
  | 58 => ⟨S_, .f32⟩
  | 59 => ⟨S3200000x32, .f32⟩
  | 60 => ⟨S3200000x32, .f32⟩
  | 61 => ⟨S3200000x1, .f32⟩
  | 62 => ⟨S3200000x32, .f32⟩
  | 63 => ⟨S3200000x32, .f32⟩
  | 64 => ⟨S_, .f32⟩
  | 65 => ⟨S100000x32, .f32⟩
  | 66 => ⟨S3200000x1, .i32⟩
  | 67 => ⟨S100000x32, .f32⟩
  | 68 => ⟨S100000x66, .f32⟩
  | 69 => ⟨S1x66x32, .f32⟩
  | 70 => ⟨S66x32, .f32⟩
  | 71 => ⟨S100000x32, .f32⟩
  | 72 => ⟨S1x32, .f32⟩
  | 73 => ⟨S32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S_, .f32⟩
  | 81 => ⟨S32, .f32⟩
  | 82 => ⟨S1x32, .f32⟩
  | 83 => ⟨S_, .f32⟩
  | 84 => ⟨S1x32, .f32⟩
  | 85 => ⟨S1x32, .f32⟩
  | 86 => ⟨S1x64, .f32⟩
  | 87 => ⟨S1x64x32, .f32⟩
  | 88 => ⟨S64x32, .f32⟩
  | 89 => ⟨S1x32, .f32⟩
  | 90 => ⟨S1x32, .f32⟩
  | 91 => ⟨S32, .f32⟩
  | 92 => ⟨S1x32, .f32⟩
  | 93 => ⟨S1x32, .f32⟩
  | 94 => ⟨S_, .f32⟩
  | 95 => ⟨S1x32, .f32⟩
  | 96 => ⟨S1x32, .f32⟩
  | 97 => ⟨S100000x32, .f32⟩
  | 98 => ⟨S100000x64, .f32⟩
  | 99 => ⟨S1x64x32, .f32⟩
  | 100 => ⟨S64x32, .f32⟩
  | 101 => ⟨S100000x32, .f32⟩
  | 102 => ⟨S1x32, .f32⟩
  | 103 => ⟨S32, .f32⟩
  | 104 => ⟨S1x32, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S1x32x2, .f32⟩
  | 111 => ⟨S32x2, .f32⟩
  | 112 => ⟨S100000x2, .f32⟩
  | 113 => ⟨S1x2, .f32⟩
  | 114 => ⟨S2, .f32⟩
  | 115 => ⟨S1x2, .f32⟩
  | 116 => ⟨S100000x2, .f32⟩
  | 117 => ⟨S100000x2, .f32⟩
  | 118 => ⟨S100000x2, .f32⟩
  | 119 => ⟨S100000x34, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x2, .f32⟩

abbrev hbmTy0_1 (i : Nat) : BufTy := match i % 128 with
  | 0 => ⟨S3200000x34, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000x34, .f32⟩
  | 10 => ⟨S3200000x70, .f32⟩
  | 11 => ⟨S1x70x32, .f32⟩
  | 12 => ⟨S70x32, .f32⟩
  | 13 => ⟨S3200000x32, .f32⟩
  | 14 => ⟨S1x32, .f32⟩
  | 15 => ⟨S32, .f32⟩
  | 16 => ⟨S1x32, .f32⟩
  | 17 => ⟨S3200000x32, .f32⟩
  | 18 => ⟨S3200000x32, .f32⟩
  | 19 => ⟨S_, .f32⟩
  | 20 => ⟨S3200000x32, .f32⟩
  | 21 => ⟨S3200000x32, .f32⟩
  | 22 => ⟨S3200000x1, .f32⟩
  | 23 => ⟨S3200000x32, .f32⟩
  | 24 => ⟨S3200000x32, .f32⟩
  | 25 => ⟨S_, .f32⟩
  | 26 => ⟨S100000x32, .f32⟩
  | 27 => ⟨S3200000x1, .i32⟩
  | 28 => ⟨S100000x32, .f32⟩
  | 29 => ⟨S100000x66, .f32⟩
  | 30 => ⟨S1x66x32, .f32⟩
  | 31 => ⟨S66x32, .f32⟩
  | 32 => ⟨S100000x32, .f32⟩
  | 33 => ⟨S1x32, .f32⟩
  | 34 => ⟨S32, .f32⟩
  | 35 => ⟨S1x32, .f32⟩
  | 36 => ⟨S100000x32, .f32⟩
  | 37 => ⟨S100000x32, .f32⟩
  | 38 => ⟨S_, .f32⟩
  | 39 => ⟨S100000x32, .f32⟩
  | 40 => ⟨S100000x32, .f32⟩
  | 41 => ⟨S_, .f32⟩
  | 42 => ⟨S32, .f32⟩
  | 43 => ⟨S1x32, .f32⟩
  | 44 => ⟨S_, .f32⟩
  | 45 => ⟨S1x32, .f32⟩
  | 46 => ⟨S1x32, .f32⟩
  | 47 => ⟨S1x64, .f32⟩
  | 48 => ⟨S1x64x32, .f32⟩
  | 49 => ⟨S64x32, .f32⟩
  | 50 => ⟨S1x32, .f32⟩
  | 51 => ⟨S1x32, .f32⟩
  | 52 => ⟨S32, .f32⟩
  | 53 => ⟨S1x32, .f32⟩
  | 54 => ⟨S1x32, .f32⟩
  | 55 => ⟨S_, .f32⟩
  | 56 => ⟨S1x32, .f32⟩
  | 57 => ⟨S1x32, .f32⟩
  | 58 => ⟨S100000x32, .f32⟩
  | 59 => ⟨S100000x64, .f32⟩
  | 60 => ⟨S1x64x32, .f32⟩
  | 61 => ⟨S64x32, .f32⟩
  | 62 => ⟨S100000x32, .f32⟩
  | 63 => ⟨S1x32, .f32⟩
  | 64 => ⟨S32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S1x32x2, .f32⟩
  | 72 => ⟨S32x2, .f32⟩
  | 73 => ⟨S100000x2, .f32⟩
  | 74 => ⟨S1x2, .f32⟩
  | 75 => ⟨S2, .f32⟩
  | 76 => ⟨S1x2, .f32⟩
  | 77 => ⟨S100000x2, .f32⟩
  | 78 => ⟨S100000x2, .f32⟩
  | 79 => ⟨S100000x2, .f32⟩
  | 80 => ⟨S100000x34, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x34, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000x34, .f32⟩
  | 99 => ⟨S3200000x70, .f32⟩
  | 100 => ⟨S1x70x32, .f32⟩
  | 101 => ⟨S70x32, .f32⟩
  | 102 => ⟨S3200000x32, .f32⟩
  | 103 => ⟨S1x32, .f32⟩
  | 104 => ⟨S32, .f32⟩
  | 105 => ⟨S1x32, .f32⟩
  | 106 => ⟨S3200000x32, .f32⟩
  | 107 => ⟨S3200000x32, .f32⟩
  | 108 => ⟨S_, .f32⟩
  | 109 => ⟨S3200000x32, .f32⟩
  | 110 => ⟨S3200000x32, .f32⟩
  | 111 => ⟨S3200000x1, .f32⟩
  | 112 => ⟨S3200000x32, .f32⟩
  | 113 => ⟨S3200000x32, .f32⟩
  | 114 => ⟨S_, .f32⟩
  | 115 => ⟨S100000x32, .f32⟩
  | 116 => ⟨S3200000x1, .i32⟩
  | 117 => ⟨S100000x32, .f32⟩
  | 118 => ⟨S100000x66, .f32⟩
  | 119 => ⟨S1x66x32, .f32⟩
  | 120 => ⟨S66x32, .f32⟩
  | 121 => ⟨S100000x32, .f32⟩
  | 122 => ⟨S1x32, .f32⟩
  | 123 => ⟨S32, .f32⟩
  | 124 => ⟨S1x32, .f32⟩
  | 125 => ⟨S100000x32, .f32⟩
  | 126 => ⟨S100000x32, .f32⟩
  | 127 => ⟨S_, .f32⟩
  | _ => ⟨S100000x2, .f32⟩

abbrev hbmTy0_2 (i : Nat) : BufTy := match i % 128 with
  | 0 => ⟨S100000x32, .f32⟩
  | 1 => ⟨S100000x32, .f32⟩
  | 2 => ⟨S_, .f32⟩
  | 3 => ⟨S32, .f32⟩
  | 4 => ⟨S1x32, .f32⟩
  | 5 => ⟨S_, .f32⟩
  | 6 => ⟨S1x32, .f32⟩
  | 7 => ⟨S1x32, .f32⟩
  | 8 => ⟨S1x64, .f32⟩
  | 9 => ⟨S1x64x32, .f32⟩
  | 10 => ⟨S64x32, .f32⟩
  | 11 => ⟨S1x32, .f32⟩
  | 12 => ⟨S1x32, .f32⟩
  | 13 => ⟨S32, .f32⟩
  | 14 => ⟨S1x32, .f32⟩
  | 15 => ⟨S1x32, .f32⟩
  | 16 => ⟨S_, .f32⟩
  | 17 => ⟨S1x32, .f32⟩
  | 18 => ⟨S1x32, .f32⟩
  | 19 => ⟨S100000x32, .f32⟩
  | 20 => ⟨S100000x64, .f32⟩
  | 21 => ⟨S1x64x32, .f32⟩
  | 22 => ⟨S64x32, .f32⟩
  | 23 => ⟨S100000x32, .f32⟩
  | 24 => ⟨S1x32, .f32⟩
  | 25 => ⟨S32, .f32⟩
  | 26 => ⟨S1x32, .f32⟩
  | 27 => ⟨S100000x32, .f32⟩
  | 28 => ⟨S100000x32, .f32⟩
  | 29 => ⟨S_, .f32⟩
  | 30 => ⟨S100000x32, .f32⟩
  | 31 => ⟨S100000x32, .f32⟩
  | 32 => ⟨S1x32x2, .f32⟩
  | 33 => ⟨S32x2, .f32⟩
  | 34 => ⟨S100000x2, .f32⟩
  | 35 => ⟨S1x2, .f32⟩
  | 36 => ⟨S2, .f32⟩
  | 37 => ⟨S1x2, .f32⟩
  | 38 => ⟨S100000x2, .f32⟩
  | 39 => ⟨S100000x2, .f32⟩
  | 40 => ⟨S100000x2, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_cst : Ref sig .tc := ⟨.hbm, 94, rfl⟩
abbrev main_call2_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call3_cst : Ref sig .tc := ⟨.hbm, 107, rfl⟩
abbrev main_call3_v0 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_9 : Ref sig .tc := ⟨.hbm, 120, rfl⟩
abbrev main_v84 : Ref sig .tc := ⟨.hbm, 121, rfl⟩
abbrev main_v85 : Ref sig .tc := ⟨.hbm, 122, rfl⟩
abbrev main_c_10 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_11 : Ref sig .tc := ⟨.hbm, 129, rfl⟩
abbrev main_v91 : Ref sig .tc := ⟨.hbm, 130, rfl⟩
abbrev main_v92 : Ref sig .tc := ⟨.hbm, 131, rfl⟩
abbrev main_c_12 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call4_cst : Ref sig .tc := ⟨.hbm, 147, rfl⟩
abbrev main_call4_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_13 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call5_cst : Ref sig .tc := ⟨.hbm, 166, rfl⟩
abbrev main_call5_v0 : Ref sig .tc := ⟨.hbm, 167, rfl⟩
abbrev main_v123 : Ref sig .tc := ⟨.hbm, 168, rfl⟩
abbrev main_cst_14 : Ref sig .tc := ⟨.hbm, 169, rfl⟩
abbrev main_v124 : Ref sig .tc := ⟨.hbm, 170, rfl⟩
abbrev main_v125 : Ref sig .tc := ⟨.hbm, 171, rfl⟩
abbrev main_cst_15 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_call6_cst : Ref sig .tc := ⟨.hbm, 183, rfl⟩
abbrev main_call6_v0 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_call7_cst : Ref sig .tc := ⟨.hbm, 196, rfl⟩
abbrev main_call7_v0 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_c_16 : Ref sig .tc := ⟨.hbm, 209, rfl⟩
abbrev main_v158 : Ref sig .tc := ⟨.hbm, 210, rfl⟩
abbrev main_v159 : Ref sig .tc := ⟨.hbm, 211, rfl⟩
abbrev main_c_17 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_18 : Ref sig .tc := ⟨.hbm, 218, rfl⟩
abbrev main_v165 : Ref sig .tc := ⟨.hbm, 219, rfl⟩
abbrev main_v166 : Ref sig .tc := ⟨.hbm, 220, rfl⟩
abbrev main_c_19 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_call8_cst : Ref sig .tc := ⟨.hbm, 236, rfl⟩
abbrev main_call8_v0 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_cst_20 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_call9_cst : Ref sig .tc := ⟨.hbm, 255, rfl⟩
abbrev main_call9_v0 : Ref sig .tc := ⟨.hbm, 256, rfl⟩
abbrev main_v197 : Ref sig .tc := ⟨.hbm, 257, rfl⟩
abbrev main_cst_21 : Ref sig .tc := ⟨.hbm, 258, rfl⟩
abbrev main_v198 : Ref sig .tc := ⟨.hbm, 259, rfl⟩
abbrev main_v199 : Ref sig .tc := ⟨.hbm, 260, rfl⟩
abbrev main_cst_22 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_call10_cst : Ref sig .tc := ⟨.hbm, 272, rfl⟩
abbrev main_call10_v0 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_call11_cst : Ref sig .tc := ⟨.hbm, 285, rfl⟩
abbrev main_call11_v0 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩

abbrev nD : Nat := 1
abbrev τ : Topo := Topo.v7x

variable {F : FTy → Type} [FloatOps F]

class Facts₀ : Prop where
  bcast_S_S100000x2 : S_.BroadcastsInDim S100000x2 (![] : Fin 0 → Fin S100000x2.rank)
  bcast_S_S1 : S_.BroadcastsInDim S1 (![] : Fin 0 → Fin S1.rank)
  bcast_S_S100000 : S_.BroadcastsInDim S100000 (![] : Fin 0 → Fin S100000.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1x32 : S_.BroadcastsInDim S1x32 (![] : Fin 0 → Fin S1x32.rank)
  concatenates_S100000x2_S100000x32_S100000x34_d1 : Shape.Concatenates [S100000x2, S100000x32] S100000x34 1
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x34_S3200000x34_S3200000x2_S3200000x70_d1 : Shape.Concatenates [S3200000x34, S3200000x34, S3200000x2] S3200000x70 1
  slices_S3x70x32_S1x70x32_0_0_0 : S3x70x32.Slices ![0, 0, 0] S1x70x32
  shapeCasts_S1x70x32_S70x32 : S1x70x32.ShapeCasts S70x32
  slices_S3x32_S1x32_0_0 : S3x32.Slices ![0, 0] S1x32
  shapeCasts_S1x32_S32 : S1x32.ShapeCasts S32
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  concatenates_S100000x34_S100000x32_S100000x66_d1 : Shape.Concatenates [S100000x34, S100000x32] S100000x66 1
  slices_S3x66x32_S1x66x32_0_0_0 : S3x66x32.Slices ![0, 0, 0] S1x66x32
  shapeCasts_S1x66x32_S66x32 : S1x66x32.ShapeCasts S66x32
  reducesTo_S100000x32_S32_d0 : S100000x32.ReducesTo [0] S32
  h_S_ : 0 < S_.numel
  concatenates_S1x32_S1x32_S1x64_d1 : Shape.Concatenates [S1x32, S1x32] S1x64 1
  slices_S3x64x32_S1x64x32_0_0_0 : S3x64x32.Slices ![0, 0, 0] S1x64x32
  shapeCasts_S1x64x32_S64x32 : S1x64x32.ShapeCasts S64x32
  concatenates_S100000x32_S100000x32_S100000x64_d1 : Shape.Concatenates [S100000x32, S100000x32] S100000x64 1
  slices_S3x32x2_S1x32x2_0_0_0 : S3x32x2.Slices ![0, 0, 0] S1x32x2
  shapeCasts_S1x32x2_S32x2 : S1x32x2.ShapeCasts S32x2
  slices_S3x2_S1x2_0_0 : S3x2.Slices ![0, 0] S1x2
  shapeCasts_S1x2_S2 : S1x2.ShapeCasts S2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  slices_S3x70x32_S1x70x32_1_0_0 : S3x70x32.Slices ![1, 0, 0] S1x70x32
  slices_S3x32_S1x32_1_0 : S3x32.Slices ![1, 0] S1x32
  slices_S3x66x32_S1x66x32_1_0_0 : S3x66x32.Slices ![1, 0, 0] S1x66x32
  slices_S3x64x32_S1x64x32_1_0_0 : S3x64x32.Slices ![1, 0, 0] S1x64x32
  slices_S3x32x2_S1x32x2_1_0_0 : S3x32x2.Slices ![1, 0, 0] S1x32x2
  slices_S3x2_S1x2_1_0 : S3x2.Slices ![1, 0] S1x2
  slices_S3x70x32_S1x70x32_2_0_0 : S3x70x32.Slices ![2, 0, 0] S1x70x32
  slices_S3x32_S1x32_2_0 : S3x32.Slices ![2, 0] S1x32
  slices_S3x66x32_S1x66x32_2_0_0 : S3x66x32.Slices ![2, 0, 0] S1x66x32
  slices_S3x64x32_S1x64x32_2_0_0 : S3x64x32.Slices ![2, 0, 0] S1x64x32
  slices_S3x32x2_S1x32x2_2_0_0 : S3x32x2.Slices ![2, 0, 0] S1x32x2
  slices_S3x2_S1x2_2_0 : S3x2.Slices ![2, 0] S1x2
  scatter_S100000x2_S1_S100000_0_1_1_0_wf : ScatterDims.WF S100000x2 S1 S100000 [0] [1] [1] 0
  dot_S100000x2_S2x32_S100000x32_1_0_0_1_n_n_wf : DotDims.WF S100000x2 S2x32 S100000x32 [1] [0] [0] [1] [] []
  gather_S100000x34_S3200000x1_S3200000x34_1_0_n_n_0_1_134_wf : GatherDims.WF S100000x34 S3200000x1 S3200000x34 [1] [0] [] [0] [] 1 ![1, 34]
  dot_S3200000x70_S70x32_S3200000x32_1_0_0_1_n_n_wf : DotDims.WF S3200000x70 S70x32 S3200000x32 [1] [0] [0] [1] [] []
  scatter_S100000x32_S3200000x1_S3200000x32_1_0_0_1_wf : ScatterDims.WF S100000x32 S3200000x1 S3200000x32 [1] [0] [0] 1
  dot_S100000x66_S66x32_S100000x32_1_0_0_1_n_n_wf : DotDims.WF S100000x66 S66x32 S100000x32 [1] [0] [0] [1] [] []
  dot_S1x64_S64x32_S1x32_1_0_0_1_n_n_wf : DotDims.WF S1x64 S64x32 S1x32 [1] [0] [0] [1] [] []
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def scatter_S100000x2_S1_S100000_0_1_1_0 : ScatterDims S100000x2 S1 S100000 where
  updateWindowDims := [0]
  insertedWindowDims := [1]
  scatterDimsToOperandDims := [1]
  indexVectorDim := 0
  wf := scatter_S100000x2_S1_S100000_0_1_1_0_wf
def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def gather_S100000x34_S3200000x1_S3200000x34_1_0_n_n_0_1_134 : GatherDims S100000x34 S3200000x1 S3200000x34 where
  offsetDims := [1]
  collapsedSliceDims := [0]
  operandBatchingDims := []
  startIndicesBatchingDims := []
  startIndexMap := [0]
  indexVectorDim := 1
  sliceSizes := ![1, 34]
  wf := gather_S100000x34_S3200000x1_S3200000x34_1_0_n_n_0_1_134_wf
def dot_S3200000x70_S70x32_S3200000x32_1_0_0_1_n_n : DotDims S3200000x70 S70x32 S3200000x32 where
  lhsContracting := [1]
  rhsContracting := [0]
  lhsNonContracting := [0]
  rhsNonContracting := [1]
  lhsBatch := []
  rhsBatch := []
  wf := dot_S3200000x70_S70x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x66_S66x32_S100000x32_1_0_0_1_n_n : DotDims S100000x66 S66x32 S100000x32 where
  lhsContracting := [1]
  rhsContracting := [0]
  lhsNonContracting := [0]
  rhsNonContracting := [1]
  lhsBatch := []
  rhsBatch := []
  wf := dot_S100000x66_S66x32_S100000x32_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.Spec.lean ====
import proofs.«424204_j12678743458345_1_alg».proof.KernelIdeal
import Idealize.ShloMosaic.PureOps.Ideal
import Idealize.ShloMosaic.Lib.ValueIdx

noncomputable section

namespace Cert.GNN

open Idealize.ShloMosaic Idealize.ShloMosaic.ValueIdx Cert.KernelIdeal

abbrev z32 : EReal := Ideal.ofBits .f32 0x00000000#32

def msgAt {E : Nat} (xs xr : (⟨2, ![E, 34]⟩ : Shape).Idx → EReal) (ef : (⟨2, ![E, 2]⟩ : Shape).Idx → EReal)
    (mk : (⟨2, ![E, 1]⟩ : Shape).Idx → EReal) (wa wb : S34x32.Idx → EReal) (wc : S2x32.Idx → EReal) (b : S32.Idx → EReal)
    (e : Fin E) (j : Fin 32) : EReal :=
  max ((∑ k : Fin 34, xs (ix2 e k) * wa (ix2 k j)) + (∑ k : Fin 34, xr (ix2 e k) * wb (ix2 k j))
      + (∑ k : Fin 2, ef (ix2 e k) * wc (ix2 k j)) + b (ix1 j)) z32 * mk (ix2 e 0)

def msgG {E : Nat} (xs xr : (⟨2, ![E, 34]⟩ : Shape).Idx → EReal) (ef : (⟨2, ![E, 2]⟩ : Shape).Idx → EReal)
    (mk : (⟨2, ![E, 1]⟩ : Shape).Idx → EReal) (wa wb : S34x32.Idx → EReal) (wc : S2x32.Idx → EReal) (b : S32.Idx → EReal) :
    (⟨2, ![E, 32]⟩ : Shape).Idx → EReal :=
  fun i => msgAt xs xr ef mk wa wb wc b (i 0) (i 1)

def nodeAAt {N : Nat} (x : (⟨2, ![N, 34]⟩ : Shape).Idx → EReal) (agg : (⟨2, ![N, 32]⟩ : Shape).Idx → EReal)
    (wx : S34x32.Idx → EReal) (wg : S32x32.Idx → EReal) (b : S32.Idx → EReal) (n : Fin N) (j : Fin 32) : EReal :=
  max ((∑ k : Fin 34, x (ix2 n k) * wx (ix2 k j)) + (∑ k : Fin 32, agg (ix2 n k) * wg (ix2 k j)) + b (ix1 j)) z32

def nodeAG {N : Nat} (x : (⟨2, ![N, 34]⟩ : Shape).Idx → EReal) (agg : (⟨2, ![N, 32]⟩ : Shape).Idx → EReal)
    (wx : S34x32.Idx → EReal) (wg : S32x32.Idx → EReal) (b : S32.Idx → EReal) : (⟨2, ![N, 32]⟩ : Shape).Idx → EReal :=
  fun i => nodeAAt x agg wx wg b (i 0) (i 1)

def nodeBHAt {N : Nat} (h1 : (⟨2, ![N, 32]⟩ : Shape).Idx → EReal) (w : S32x32.Idx → EReal) (bias : S1x32.Idx → EReal)
    (n : Fin N) (j : Fin 32) : EReal :=
  max ((∑ k : Fin 32, h1 (ix2 n k) * w (ix2 k j)) + bias (ix2 0 j)) z32

def nodeBH {N : Nat} (h1 : (⟨2, ![N, 32]⟩ : Shape).Idx → EReal) (w : S32x32.Idx → EReal) (bias : S1x32.Idx → EReal) :
    (⟨2, ![N, 32]⟩ : Shape).Idx → EReal :=
  fun i => nodeBHAt h1 w bias (i 0) (i 1)

def nodeBVAt {N : Nat} (h1 : (⟨2, ![N, 32]⟩ : Shape).Idx → EReal) (v : (⟨2, ![N, 2]⟩ : Shape).Idx → EReal)
    (w : S32x32.Idx → EReal) (bias : S1x32.Idx → EReal) (wdv : S32x2.Idx → EReal) (bdv : S2.Idx → EReal)
    (n : Fin N) (j : Fin 2) : EReal :=
  v (ix2 n j) + ((∑ k : Fin 32, nodeBHAt h1 w bias n k * wdv (ix2 k j)) + bdv (ix1 j))

def nodeBV {N : Nat} (h1 : (⟨2, ![N, 32]⟩ : Shape).Idx → EReal) (v : (⟨2, ![N, 2]⟩ : Shape).Idx → EReal)
    (w : S32x32.Idx → EReal) (bias : S1x32.Idx → EReal) (wdv : S32x2.Idx → EReal) (bdv : S2.Idx → EReal) :
    (⟨2, ![N, 2]⟩ : Shape).Idx → EReal :=
  fun i => nodeBVAt h1 v w bias wdv bdv (i 0) (i 1)

end Cert.GNN

end
-- ==== Proof.OpsK.lean ====
import proofs.«424204_j12678743458345_1_alg».proof.Proof.Spec

noncomputable section

namespace Cert.GNN.K

open Idealize.ShloMosaic Cert.KernelIdeal

variable {F : FTy → Type} [FloatOps F] [Facts₀]
open Facts₀

abbrev T (F : FTy → Type) [FloatOps F] (S : Shape) := (⟨S, .f32⟩ : BufTy).Contents (Elt F)

abbrev I (F : FTy → Type) [FloatOps F] (S : Shape) := (⟨S, .i32⟩ : BufTy).Contents (Elt F)

def vInit : T F S100000x2 :=
  Host.scatter scatter_S100000x2_S1_S100000_0_1_1_0 (fun _ b => b)
    (broadcastInDim S100000x2 ![] bcast_S_S100000x2 (constant S_ .f32 0x00000000#32))
    (broadcastInDim S1 ![] bcast_S_S1 (constantI S_ 32 0#32))
    (broadcastInDim S100000 ![] bcast_S_S100000 (constant S_ .f32 0x3F800000#32))

def hInit (a0 : T F S100000x2) (a5 : T F S2x32) (a6 : T F S32) : T F S100000x32 :=
  addf (Host.dotGeneral dot_S100000x2_S2x32_S100000x32_1_0_0_1_n_n none a0 a5)
    (broadcastInDim S100000x32 ![0, 1] bcast_S1x32_S100000x32_0_1 (broadcastInDim S1x32 ![1] bcast_S32_S1x32_1 a6))

def gInit : T F S1x32 := broadcastInDim S1x32 ![] bcast_S_S1x32 (constant S_ .f32 0x00000000#32)

def maskCol (a4 : T F S3200000) : T F S3200000x1 := broadcastInDim S3200000x1 ![0] bcast_S3200000_S3200000x1_0 a4

def catX (v : T F S100000x2) (h : T F S100000x32) : T F S100000x34 :=
  concatenate S100000x34 1 [⟨S100000x2, v⟩, ⟨S100000x32, h⟩] concatenates_S100000x2_S100000x32_S100000x34_d1

def wrapCol (a : I F S3200000) : I F S3200000x1 :=
  broadcastInDim S3200000x1 ![0] bcast_S3200000_S3200000x1_0
    (select (cmpi .slt a (broadcastInDim S3200000 ![] bcast_S_S3200000 (constantI S_ 32 0#32)))
      (addi a (broadcastInDim S3200000 ![] bcast_S_S3200000 (constantI S_ 32 100000#32))) a)

def gath (x : T F S100000x34) (a : I F S3200000) : T F S3200000x34 :=
  Host.gather gather_S100000x34_S3200000x1_S3200000x34_1_0_n_n_0_1_134 x (wrapCol a)

def aggOf (a2 : I F S3200000) (msg : T F S3200000x32) : T F S100000x32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 a2) msg

def pooled (h1 : T F S100000x32) : T F S1x32 :=
  Host.divf (broadcastInDim S1x32 ![1] bcast_S32_S1x32_1 (Host.reduceAdd h1 (constant S_ .f32 0x00000000#32) reducesTo_S100000x32_S32_d0 h_S_))
    (broadcastInDim S1x32 ![] bcast_S_S1x32 (constant S_ .f32 0x47C35000#32))

def gNext (g : T F S1x32) (h1 : T F S100000x32) (wg : T F S64x32) (bg : T F S32) : T F S1x32 :=
  maximumf
    (addf
      (addf (Host.dotGeneral dot_S1x32_S32x32_S1x32_1_0_0_1_n_n none g (extractStridedSlice S32x32 ![0, 0] wg slices_S64x32_S32x32_0_0))
            (Host.dotGeneral dot_S1x32_S32x32_S1x32_1_0_0_1_n_n none (pooled h1) (extractStridedSlice S32x32 ![32, 0] wg slices_S64x32_S32x32_32_0)))
      (broadcastInDim S1x32 ![1] bcast_S32_S1x32_1 bg))
    (broadcastInDim S1x32 ![] bcast_S_S1x32 (constant S_ .f32 0x00000000#32))

def biasRow (g' : T F S1x32) (wgn : T F S64x32) (bgn : T F S32) : T F S1x32 :=
  addf (Host.dotGeneral dot_S1x32_S32x32_S1x32_1_0_0_1_n_n none g' (extractStridedSlice S32x32 ![32, 0] wgn slices_S64x32_S32x32_32_0))
    (broadcastInDim S1x32 ![1] bcast_S32_S1x32_1 bgn)

end Cert.GNN.K

namespace Cert.GNN.K

open Idealize.ShloMosaic Cert.KernelIdeal
variable [Facts₀]
open Facts₀

def msgs (wm : T Ideal S70x32) (bm : T Ideal S32) (a1 a2 : I Ideal S3200000) (a3 : T Ideal S3200000x2) (a4 : T Ideal S3200000)
    (x : T Ideal S100000x34) : T Ideal S3200000x32 :=
  msgG (E := 3200000) (gath x a1) (gath x a2) a3 (maskCol a4)
    (extractStridedSlice S34x32 ![0, 0] wm slices_S70x32_S34x32_0_0)
    (extractStridedSlice S34x32 ![34, 0] wm slices_S70x32_S34x32_34_0)
    (extractStridedSlice S2x32 ![68, 0] wm slices_S70x32_S2x32_68_0) bm

def h1Of (wn : T Ideal S66x32) (bn : T Ideal S32) (x : T Ideal S100000x34) (agg : T Ideal S100000x32) : T Ideal S100000x32 :=
  nodeAG (N := 100000) x agg (extractStridedSlice S34x32 ![0, 0] wn slices_S66x32_S34x32_0_0)
    (extractStridedSlice S32x32 ![34, 0] wn slices_S66x32_S32x32_34_0) bn

def hNext (h1 : T Ideal S100000x32) (g' : T Ideal S1x32) (wgn : T Ideal S64x32) (bgn : T Ideal S32) : T Ideal S100000x32 :=
  nodeBH (N := 100000) h1 (extractStridedSlice S32x32 ![0, 0] wgn slices_S64x32_S32x32_0_0) (biasRow g' wgn bgn)

def vNext (v : T Ideal S100000x2) (h1 : T Ideal S100000x32) (g' : T Ideal S1x32) (wgn : T Ideal S64x32) (bgn : T Ideal S32)
    (wdv : T Ideal S32x2) (bdv : T Ideal S2) : T Ideal S100000x2 :=
  nodeBV (N := 100000) h1 v (extractStridedSlice S32x32 ![0, 0] wgn slices_S64x32_S32x32_0_0) (biasRow g' wgn bgn) wdv bdv

end Cert.GNN.K

end
-- ==== Proof.OpsR.lean ====
import proofs.«424204_j12678743458345_1_alg».proof.ReferenceIdeal

noncomputable section

namespace Cert.GNN.R

open Idealize.ShloMosaic Cert.ReferenceIdeal

variable {F : FTy → Type} [FloatOps F] [Facts₀]
open Facts₀

abbrev T (F : FTy → Type) [FloatOps F] (S : Shape) := (⟨S, .f32⟩ : BufTy).Contents (Elt F)

abbrev I (F : FTy → Type) [FloatOps F] (S : Shape) := (⟨S, .i32⟩ : BufTy).Contents (Elt F)

def vInit : T F S100000x2 :=
  Host.scatter scatter_S100000x2_S1_S100000_0_1_1_0 (fun _ b => b)
    (broadcastInDim S100000x2 ![] bcast_S_S100000x2 (constant S_ .f32 0x00000000#32))
    (broadcastInDim S1 ![] bcast_S_S1 (constantI S_ 32 0#32))
    (broadcastInDim S100000 ![] bcast_S_S100000 (constant S_ .f32 0x3F800000#32))

def hInit (a0 : T F S100000x2) (a5 : T F S2x32) (a6 : T F S32) : T F S100000x32 :=
  addf (Host.dotGeneral dot_S100000x2_S2x32_S100000x32_1_0_0_1_n_n none a0 a5)
    (broadcastInDim S100000x32 ![0, 1] bcast_S1x32_S100000x32_0_1 (broadcastInDim S1x32 ![1] bcast_S32_S1x32_1 a6))

def gInit : T F S1x32 := broadcastInDim S1x32 ![] bcast_S_S1x32 (constant S_ .f32 0x00000000#32)

def catX (v : T F S100000x2) (h : T F S100000x32) : T F S100000x34 :=
  concatenate S100000x34 1 [⟨S100000x2, v⟩, ⟨S100000x32, h⟩] concatenates_S100000x2_S100000x32_S100000x34_d1

def wrapCol (a : I F S3200000) : I F S3200000x1 :=
  broadcastInDim S3200000x1 ![0] bcast_S3200000_S3200000x1_0
    (select (cmpi .slt a (broadcastInDim S3200000 ![] bcast_S_S3200000 (constantI S_ 32 0#32)))
      (addi a (broadcastInDim S3200000 ![] bcast_S_S3200000 (constantI S_ 32 100000#32))) a)

def gath (x : T F S100000x34) (a : I F S3200000) : T F S3200000x34 :=
  Host.gather gather_S100000x34_S3200000x1_S3200000x34_1_0_n_n_0_1_134 x (wrapCol a)

def msgs (wm : T F S70x32) (bm : T F S32) (a1 a2 : I F S3200000) (a3 : T F S3200000x2) (a4 : T F S3200000)
    (x : T F S100000x34) : T F S3200000x32 :=
  mulf
    (maximumf
      (addf
        (Host.dotGeneral dot_S3200000x70_S70x32_S3200000x32_1_0_0_1_n_n none
          (concatenate S3200000x70 1 [⟨S3200000x34, gath x a1⟩, ⟨S3200000x34, gath x a2⟩, ⟨S3200000x2, a3⟩]
            concatenates_S3200000x34_S3200000x34_S3200000x2_S3200000x70_d1) wm)
        (broadcastInDim S3200000x32 ![0, 1] bcast_S1x32_S3200000x32_0_1 (broadcastInDim S1x32 ![1] bcast_S32_S1x32_1 bm)))
      (broadcastInDim S3200000x32 ![] bcast_S_S3200000x32 (constant S_ .f32 0x00000000#32)))
    (broadcastInDim S3200000x32 ![0, 1] bcast_S3200000x1_S3200000x32_0_1 (broadcastInDim S3200000x1 ![0] bcast_S3200000_S3200000x1_0 a4))

def aggOf (a2 : I F S3200000) (msg : T F S3200000x32) : T F S100000x32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 a2) msg

def h1Of (wn : T F S66x32) (bn : T F S32) (x : T F S100000x34) (agg : T F S100000x32) : T F S100000x32 :=
  maximumf
    (addf
      (Host.dotGeneral dot_S100000x66_S66x32_S100000x32_1_0_0_1_n_n none
        (concatenate S100000x66 1 [⟨S100000x34, x⟩, ⟨S100000x32, agg⟩] concatenates_S100000x34_S100000x32_S100000x66_d1) wn)
      (broadcastInDim S100000x32 ![0, 1] bcast_S1x32_S100000x32_0_1 (broadcastInDim S1x32 ![1] bcast_S32_S1x32_1 bn)))
    (broadcastInDim S100000x32 ![] bcast_S_S100000x32 (constant S_ .f32 0x00000000#32))

def pooled (h1 : T F S100000x32) : T F S1x32 :=
  Host.divf (broadcastInDim S1x32 ![1] bcast_S32_S1x32_1 (Host.reduceAdd h1 (constant S_ .f32 0x00000000#32) reducesTo_S100000x32_S32_d0 h_S_))
    (broadcastInDim S1x32 ![] bcast_S_S1x32 (constant S_ .f32 0x47C35000#32))

def gNext (g : T F S1x32) (h1 : T F S100000x32) (wg : T F S64x32) (bg : T F S32) : T F S1x32 :=
  maximumf
    (addf
      (Host.dotGeneral dot_S1x64_S64x32_S1x32_1_0_0_1_n_n none
        (concatenate S1x64 1 [⟨S1x32, g⟩, ⟨S1x32, pooled h1⟩] concatenates_S1x32_S1x32_S1x64_d1) wg)
      (broadcastInDim S1x32 ![1] bcast_S32_S1x32_1 bg))
    (broadcastInDim S1x32 ![] bcast_S_S1x32 (constant S_ .f32 0x00000000#32))

def hNext (h1 : T F S100000x32) (g' : T F S1x32) (wgn : T F S64x32) (bgn : T F S32) : T F S100000x32 :=
  maximumf
    (addf
      (Host.dotGeneral dot_S100000x64_S64x32_S100000x32_1_0_0_1_n_n none
        (concatenate S100000x64 1 [⟨S100000x32, h1⟩, ⟨S100000x32, broadcastInDim S100000x32 ![0, 1] bcast_S1x32_S100000x32_0_1 g'⟩]
          concatenates_S100000x32_S100000x32_S100000x64_d1) wgn)
      (broadcastInDim S100000x32 ![0, 1] bcast_S1x32_S100000x32_0_1 (broadcastInDim S1x32 ![1] bcast_S32_S1x32_1 bgn)))
    (broadcastInDim S100000x32 ![] bcast_S_S100000x32 (constant S_ .f32 0x00000000#32))

def vNext (v : T F S100000x2) (h' : T F S100000x32) (wdv : T F S32x2) (bdv : T F S2) : T F S100000x2 :=
  addf v
    (addf (Host.dotGeneral dot_S100000x32_S32x2_S100000x2_1_0_0_1_n_n none h' wdv)
      (broadcastInDim S100000x2 ![0, 1] bcast_S1x2_S100000x2_0_1 (broadcastInDim S1x2 ![1] bcast_S2_S1x2_1 bdv)))

end Cert.GNN.R

end
-- ==== Proof.Step.lean ====
import proofs.«424204_j12678743458345_1_alg».proof.Proof.OpsK
import proofs.«424204_j12678743458345_1_alg».proof.Proof.OpsR

noncomputable section

namespace Cert.GNN.K

open Idealize.ShloMosaic Cert.KernelIdeal
variable [Facts₀]
open Facts₀

structure LayerW where
  wm : T Ideal S70x32
  bm : T Ideal S32
  wn : T Ideal S66x32
  bn : T Ideal S32
  wg : T Ideal S64x32
  bg : T Ideal S32
  wgn : T Ideal S64x32
  bgn : T Ideal S32
  wdv : T Ideal S32x2
  bdv : T Ideal S2

structure State where
  v : T Ideal S100000x2
  h : T Ideal S100000x32
  g : T Ideal S1x32

def slab {A B C : Shape} (off : Fin A.rank → Nat) (hs : A.Slices off B) (hc : B.ShapeCasts C) (a : T Ideal A) : T Ideal C :=
  fun i => shapeCast C (extractStridedSlice B off a hs) hc i

def layerW0 (a7 : T Ideal S3x70x32) (a8 : T Ideal S3x32) (a9 : T Ideal S3x66x32) (a10 : T Ideal S3x32) (a11 : T Ideal S3x64x32) (a12 : T Ideal S3x32)
    (a13 : T Ideal S3x64x32) (a14 : T Ideal S3x32) (a15 : T Ideal S3x32x2) (a16 : T Ideal S3x2) : LayerW where
  wm := slab ![0, 0, 0] slices_S3x70x32_S1x70x32_0_0_0 shapeCasts_S1x70x32_S70x32 a7
  bm := slab ![0, 0] slices_S3x32_S1x32_0_0 shapeCasts_S1x32_S32 a8
  wn := slab ![0, 0, 0] slices_S3x66x32_S1x66x32_0_0_0 shapeCasts_S1x66x32_S66x32 a9
  bn := slab ![0, 0] slices_S3x32_S1x32_0_0 shapeCasts_S1x32_S32 a10
  wg := slab ![0, 0, 0] slices_S3x64x32_S1x64x32_0_0_0 shapeCasts_S1x64x32_S64x32 a11
  bg := slab ![0, 0] slices_S3x32_S1x32_0_0 shapeCasts_S1x32_S32 a12
  wgn := slab ![0, 0, 0] slices_S3x64x32_S1x64x32_0_0_0 shapeCasts_S1x64x32_S64x32 a13
  bgn := slab ![0, 0] slices_S3x32_S1x32_0_0 shapeCasts_S1x32_S32 a14
  wdv := slab ![0, 0, 0] slices_S3x32x2_S1x32x2_0_0_0 shapeCasts_S1x32x2_S32x2 a15
  bdv := slab ![0, 0] slices_S3x2_S1x2_0_0 shapeCasts_S1x2_S2 a16

def layerW1 (a7 : T Ideal S3x70x32) (a8 : T Ideal S3x32) (a9 : T Ideal S3x66x32) (a10 : T Ideal S3x32) (a11 : T Ideal S3x64x32) (a12 : T Ideal S3x32)
    (a13 : T Ideal S3x64x32) (a14 : T Ideal S3x32) (a15 : T Ideal S3x32x2) (a16 : T Ideal S3x2) : LayerW where
  wm := slab ![1, 0, 0] slices_S3x70x32_S1x70x32_1_0_0 shapeCasts_S1x70x32_S70x32 a7
  bm := slab ![1, 0] slices_S3x32_S1x32_1_0 shapeCasts_S1x32_S32 a8
  wn := slab ![1, 0, 0] slices_S3x66x32_S1x66x32_1_0_0 shapeCasts_S1x66x32_S66x32 a9
  bn := slab ![1, 0] slices_S3x32_S1x32_1_0 shapeCasts_S1x32_S32 a10
  wg := slab ![1, 0, 0] slices_S3x64x32_S1x64x32_1_0_0 shapeCasts_S1x64x32_S64x32 a11
  bg := slab ![1, 0] slices_S3x32_S1x32_1_0 shapeCasts_S1x32_S32 a12
  wgn := slab ![1, 0, 0] slices_S3x64x32_S1x64x32_1_0_0 shapeCasts_S1x64x32_S64x32 a13
  bgn := slab ![1, 0] slices_S3x32_S1x32_1_0 shapeCasts_S1x32_S32 a14
  wdv := slab ![1, 0, 0] slices_S3x32x2_S1x32x2_1_0_0 shapeCasts_S1x32x2_S32x2 a15
  bdv := slab ![1, 0] slices_S3x2_S1x2_1_0 shapeCasts_S1x2_S2 a16

def layerW2 (a7 : T Ideal S3x70x32) (a8 : T Ideal S3x32) (a9 : T Ideal S3x66x32) (a10 : T Ideal S3x32) (a11 : T Ideal S3x64x32) (a12 : T Ideal S3x32)
    (a13 : T Ideal S3x64x32) (a14 : T Ideal S3x32) (a15 : T Ideal S3x32x2) (a16 : T Ideal S3x2) : LayerW where
  wm := slab ![2, 0, 0] slices_S3x70x32_S1x70x32_2_0_0 shapeCasts_S1x70x32_S70x32 a7
  bm := slab ![2, 0] slices_S3x32_S1x32_2_0 shapeCasts_S1x32_S32 a8
  wn := slab ![2, 0, 0] slices_S3x66x32_S1x66x32_2_0_0 shapeCasts_S1x66x32_S66x32 a9
  bn := slab ![2, 0] slices_S3x32_S1x32_2_0 shapeCasts_S1x32_S32 a10
  wg := slab ![2, 0, 0] slices_S3x64x32_S1x64x32_2_0_0 shapeCasts_S1x64x32_S64x32 a11
  bg := slab ![2, 0] slices_S3x32_S1x32_2_0 shapeCasts_S1x32_S32 a12
  wgn := slab ![2, 0, 0] slices_S3x64x32_S1x64x32_2_0_0 shapeCasts_S1x64x32_S64x32 a13
  bgn := slab ![2, 0] slices_S3x32_S1x32_2_0 shapeCasts_S1x32_S32 a14
  wdv := slab ![2, 0, 0] slices_S3x32x2_S1x32x2_2_0_0 shapeCasts_S1x32x2_S32x2 a15
  bdv := slab ![2, 0] slices_S3x2_S1x2_2_0 shapeCasts_S1x2_S2 a16

def init (a0 : T Ideal S100000x2) (a5 : T Ideal S2x32) (a6 : T Ideal S32) : State := ⟨vInit, hInit a0 a5 a6, gInit⟩

def step (P : LayerW) (a1 a2 : I Ideal S3200000) (a3 : T Ideal S3200000x2) (a4 : T Ideal S3200000) (s : State) : State :=
  let x := catX s.v s.h
  let h1 := h1Of P.wn P.bn x (aggOf a2 (msgs P.wm P.bm a1 a2 a3 a4 x))
  let g' := gNext s.g h1 P.wg P.bg
  ⟨vNext s.v h1 g' P.wgn P.bgn P.wdv P.bdv, hNext h1 g' P.wgn P.bgn, g'⟩

end Cert.GNN.K

namespace Cert.GNN.R

open Idealize.ShloMosaic Cert.ReferenceIdeal
variable [Facts₀]
open Facts₀

structure LayerW where
  wm : T Ideal S70x32
  bm : T Ideal S32
  wn : T Ideal S66x32
  bn : T Ideal S32
  wg : T Ideal S64x32
  bg : T Ideal S32
  wgn : T Ideal S64x32
  bgn : T Ideal S32
  wdv : T Ideal S32x2
  bdv : T Ideal S2

structure State where
  v : T Ideal S100000x2
  h : T Ideal S100000x32
  g : T Ideal S1x32

def slab {A B C : Shape} (off : Fin A.rank → Nat) (hs : A.Slices off B) (hc : B.ShapeCasts C) (a : T Ideal A) : T Ideal C :=
  fun i => shapeCast C (extractStridedSlice B off a hs) hc i

def layerW0 (a7 : T Ideal S3x70x32) (a8 : T Ideal S3x32) (a9 : T Ideal S3x66x32) (a10 : T Ideal S3x32) (a11 : T Ideal S3x64x32) (a12 : T Ideal S3x32)
    (a13 : T Ideal S3x64x32) (a14 : T Ideal S3x32) (a15 : T Ideal S3x32x2) (a16 : T Ideal S3x2) : LayerW where
  wm := slab ![0, 0, 0] slices_S3x70x32_S1x70x32_0_0_0 shapeCasts_S1x70x32_S70x32 a7
  bm := slab ![0, 0] slices_S3x32_S1x32_0_0 shapeCasts_S1x32_S32 a8
  wn := slab ![0, 0, 0] slices_S3x66x32_S1x66x32_0_0_0 shapeCasts_S1x66x32_S66x32 a9
  bn := slab ![0, 0] slices_S3x32_S1x32_0_0 shapeCasts_S1x32_S32 a10
  wg := slab ![0, 0, 0] slices_S3x64x32_S1x64x32_0_0_0 shapeCasts_S1x64x32_S64x32 a11
  bg := slab ![0, 0] slices_S3x32_S1x32_0_0 shapeCasts_S1x32_S32 a12
  wgn := slab ![0, 0, 0] slices_S3x64x32_S1x64x32_0_0_0 shapeCasts_S1x64x32_S64x32 a13
  bgn := slab ![0, 0] slices_S3x32_S1x32_0_0 shapeCasts_S1x32_S32 a14
  wdv := slab ![0, 0, 0] slices_S3x32x2_S1x32x2_0_0_0 shapeCasts_S1x32x2_S32x2 a15
  bdv := slab ![0, 0] slices_S3x2_S1x2_0_0 shapeCasts_S1x2_S2 a16

def layerW1 (a7 : T Ideal S3x70x32) (a8 : T Ideal S3x32) (a9 : T Ideal S3x66x32) (a10 : T Ideal S3x32) (a11 : T Ideal S3x64x32) (a12 : T Ideal S3x32)
    (a13 : T Ideal S3x64x32) (a14 : T Ideal S3x32) (a15 : T Ideal S3x32x2) (a16 : T Ideal S3x2) : LayerW where
  wm := slab ![1, 0, 0] slices_S3x70x32_S1x70x32_1_0_0 shapeCasts_S1x70x32_S70x32 a7
  bm := slab ![1, 0] slices_S3x32_S1x32_1_0 shapeCasts_S1x32_S32 a8
  wn := slab ![1, 0, 0] slices_S3x66x32_S1x66x32_1_0_0 shapeCasts_S1x66x32_S66x32 a9
  bn := slab ![1, 0] slices_S3x32_S1x32_1_0 shapeCasts_S1x32_S32 a10
  wg := slab ![1, 0, 0] slices_S3x64x32_S1x64x32_1_0_0 shapeCasts_S1x64x32_S64x32 a11
  bg := slab ![1, 0] slices_S3x32_S1x32_1_0 shapeCasts_S1x32_S32 a12
  wgn := slab ![1, 0, 0] slices_S3x64x32_S1x64x32_1_0_0 shapeCasts_S1x64x32_S64x32 a13
  bgn := slab ![1, 0] slices_S3x32_S1x32_1_0 shapeCasts_S1x32_S32 a14
  wdv := slab ![1, 0, 0] slices_S3x32x2_S1x32x2_1_0_0 shapeCasts_S1x32x2_S32x2 a15
  bdv := slab ![1, 0] slices_S3x2_S1x2_1_0 shapeCasts_S1x2_S2 a16

def layerW2 (a7 : T Ideal S3x70x32) (a8 : T Ideal S3x32) (a9 : T Ideal S3x66x32) (a10 : T Ideal S3x32) (a11 : T Ideal S3x64x32) (a12 : T Ideal S3x32)
    (a13 : T Ideal S3x64x32) (a14 : T Ideal S3x32) (a15 : T Ideal S3x32x2) (a16 : T Ideal S3x2) : LayerW where
  wm := slab ![2, 0, 0] slices_S3x70x32_S1x70x32_2_0_0 shapeCasts_S1x70x32_S70x32 a7
  bm := slab ![2, 0] slices_S3x32_S1x32_2_0 shapeCasts_S1x32_S32 a8
  wn := slab ![2, 0, 0] slices_S3x66x32_S1x66x32_2_0_0 shapeCasts_S1x66x32_S66x32 a9
  bn := slab ![2, 0] slices_S3x32_S1x32_2_0 shapeCasts_S1x32_S32 a10
  wg := slab ![2, 0, 0] slices_S3x64x32_S1x64x32_2_0_0 shapeCasts_S1x64x32_S64x32 a11
  bg := slab ![2, 0] slices_S3x32_S1x32_2_0 shapeCasts_S1x32_S32 a12
  wgn := slab ![2, 0, 0] slices_S3x64x32_S1x64x32_2_0_0 shapeCasts_S1x64x32_S64x32 a13
  bgn := slab ![2, 0] slices_S3x32_S1x32_2_0 shapeCasts_S1x32_S32 a14
  wdv := slab ![2, 0, 0] slices_S3x32x2_S1x32x2_2_0_0 shapeCasts_S1x32x2_S32x2 a15
  bdv := slab ![2, 0] slices_S3x2_S1x2_2_0 shapeCasts_S1x2_S2 a16

def init (a0 : T Ideal S100000x2) (a5 : T Ideal S2x32) (a6 : T Ideal S32) : State := ⟨vInit, hInit a0 a5 a6, gInit⟩

def step (P : LayerW) (a1 a2 : I Ideal S3200000) (a3 : T Ideal S3200000x2) (a4 : T Ideal S3200000) (s : State) : State :=
  let x := catX s.v s.h
  let h1 := h1Of P.wn P.bn x (aggOf a2 (msgs P.wm P.bm a1 a2 a3 a4 x))
  let g' := gNext s.g h1 P.wg P.bg
  let h' := hNext h1 g' P.wgn P.bgn
  ⟨vNext s.v h' P.wdv P.bdv, h', g'⟩

end Cert.GNN.R

end
-- ==== Proof.KArgs.lean ====
import proofs.«424204_j12678743458345_1_alg».proof.Proof.Gen.KernelIdeal.Launch
import proofs.«424204_j12678743458345_1_alg».proof.Proof.Step
import Idealize.ShloMosaic.Lib.StableHlo.Run

noncomputable section

namespace Cert.GNN.KSide

open Idealize.ShloMosaic Idealize.ShloMosaic.TcCoe Idealize.ShloMosaic.StableHlo Cert.KernelIdeal Cert.KernelIdeal.Gen

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16]

/-- A layer's weights, cut by `L` out of the stacked weight arguments as a valuation holds them. -/
abbrev PW (L : K.T Ideal S3x70x32 → K.T Ideal S3x32 → K.T Ideal S3x66x32 → K.T Ideal S3x32 → K.T Ideal S3x64x32 → K.T Ideal S3x32
      → K.T Ideal S3x64x32 → K.T Ideal S3x32 → K.T Ideal S3x32x2 → K.T Ideal S3x2 → K.LayerW)
    (W : Valuation τ sig (Elt Ideal)) : K.LayerW :=
  L (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16))

/-- Every operation of the list writes only references of `L`. -/
abbrev WritesIn (ops : List (HloOp τ sig (Elt Ideal))) (L : List (Ref sig .tc)) : Prop :=
  ops.Forall fun op => op.writes ⊆ (L.map (Proc.devRef (τ := τ) .tc)).toFinset

variable (m : (ℓ : Loc nD τ sig) → Buf (Elt Ideal) ℓ) (c : Dev nD)

/-- Every argument buffer of a valuation holds what the launch memory holds. -/
def ArgsAt (W : Valuation τ sig (Elt Ideal)) : Prop :=
  ∀ r ∈ argRefs, W (Proc.devRef .tc r) = m ((c.tc : Thread nD τ).loc r)

theorem PW_eq (L) {W : Valuation τ sig (Elt Ideal)} (a : ArgsAt m c W) : PW L W = PW L (launchContents m c) := by
  unfold PW
  rw [a main_arg7 (by decide), a main_arg8 (by decide), a main_arg9 (by decide), a main_arg10 (by decide), a main_arg11 (by decide), a main_arg12 (by decide), a main_arg13 (by decide), a main_arg14 (by decide), a main_arg15 (by decide), a main_arg16 (by decide)] <;> rfl

end Cert.GNN.KSide

end
-- ==== Proof.KInv.lean ====
import proofs.«424204_j12678743458345_1_alg».proof.Proof.KRun
import proofs.«424204_j12678743458345_1_alg».proof.Proof.KArgs

noncomputable section

namespace Cert.GNN.KSide

open Idealize.ShloMosaic Idealize.ShloMosaic.TcCoe Idealize.ShloMosaic.StableHlo Idealize.SL.Sem Cert.KernelIdeal Cert.KernelIdeal.Gen

variable (m : (ℓ : Loc nD τ sig) → Buf (Elt Ideal) ℓ) (ρ : Dev nD → PrngReg) (c : Dev nD)

/-- The exit of the third kernel holds the state s, the mask column, and the arguments as launched. -/
structure At8 (s : K.State) : Prop where
  v : W8 m ρ c (Proc.devRef .tc main_v72_1) = s.v
  h : W8 m ρ c (Proc.devRef .tc main_v72_0) = s.h
  g : W8 m ρ c (Proc.devRef .tc main_v58) = s.g
  mask : W8 m ρ c (Proc.devRef .tc main_v9) = K.maskCol (m ((c.tc : Thread nD τ).loc main_arg4))
  args : ArgsAt m c (W8 m ρ c)

/-- The same at the exit of the sixth kernel. -/
structure At16 (s : K.State) : Prop where
  v : W16 m ρ c (Proc.devRef .tc main_v135_1) = s.v
  h : W16 m ρ c (Proc.devRef .tc main_v135_0) = s.h
  g : W16 m ρ c (Proc.devRef .tc main_v121) = s.g
  mask : W16 m ρ c (Proc.devRef .tc main_v9) = K.maskCol (m ((c.tc : Thread nD τ).loc main_arg4))
  args : ArgsAt m c (W16 m ρ c)

abbrev P0 : K.LayerW := (K.layerW0 (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
abbrev P1 : K.LayerW := (K.layerW1 (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
abbrev P2 : K.LayerW := (K.layerW2 (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
abbrev S0 : K.State := K.init (m ((c.tc : Thread nD τ).loc main_arg0)) (m ((c.tc : Thread nD τ).loc main_arg5)) (m ((c.tc : Thread nD τ).loc main_arg6))
abbrev stepAt (P : K.LayerW) (s : K.State) : K.State := K.step P (m ((c.tc : Thread nD τ).loc main_arg1)) (m ((c.tc : Thread nD τ).loc main_arg2)) (m ((c.tc : Thread nD τ).loc main_arg3)) (m ((c.tc : Thread nD τ).loc main_arg4)) s

/-- What a layer with weights P computes from a state: node features, edge messages, updated node state, new global state. -/
abbrev xOf (s : K.State) : K.T Ideal S100000x34 := K.catX s.v s.h
abbrev msgOf (P : K.LayerW) (s : K.State) : K.T Ideal S3200000x32 :=
  K.msgs P.wm P.bm (m ((c.tc : Thread nD τ).loc main_arg1)) (m ((c.tc : Thread nD τ).loc main_arg2)) (m ((c.tc : Thread nD τ).loc main_arg3)) (m ((c.tc : Thread nD τ).loc main_arg4)) (xOf s)
abbrev h1Of (P : K.LayerW) (s : K.State) : K.T Ideal S100000x32 :=
  K.h1Of P.wn P.bn (xOf s) (K.aggOf (m ((c.tc : Thread nD τ).loc main_arg2)) (msgOf m c P s))
abbrev gOf (P : K.LayerW) (s : K.State) : K.T Ideal S1x32 := K.gNext s.g (h1Of m c P s) P.wg P.bg

end Cert.GNN.KSide

end
-- ==== Proof.KHost0.lean ====
import proofs.«424204_j12678743458345_1_alg».proof.Proof.KArgs

set_option maxRecDepth 16384

noncomputable section

namespace Cert.GNN.KHost0

open Idealize.ShloMosaic Idealize.ShloMosaic.StableHlo Cert.KernelIdeal Cert.KernelIdeal.Gen Cert.GNN.K Cert.GNN.KSide

variable (W : Valuation τ sig (Elt Ideal))

theorem catX_of {v v' : T Ideal S100000x2} {h h' : T Ideal S100000x32} (hv : v = v') (hh : h = h') :
    concatenate S100000x34 1 [⟨S100000x2, v⟩, ⟨S100000x32, h⟩] Facts₀.concatenates_S100000x2_S100000x32_S100000x34_d1 = catX v' h' := by
  subst hv hh; rfl
theorem gath_of {x x' : T Ideal S100000x34} {i : I Ideal S3200000x1} {a : I Ideal S3200000} (hx : x = x') (hi : i = wrapCol a) :
    Host.gather gather_S100000x34_S3200000x1_S3200000x34_1_0_n_n_0_1_134 x i = gath x' a := by
  subst hx hi; rfl
theorem pre_v : after (hostOps0 (F := Ideal)) W (Proc.devRef .tc main_v3) = vInit := by
  after_results_simp <;> rfl
theorem pre_g : after (hostOps0 (F := Ideal)) W (Proc.devRef .tc main_v8) = gInit := by
  after_results_simp <;> rfl
theorem pre_mask : after (hostOps0 (F := Ideal)) W (Proc.devRef .tc main_v9) = maskCol (W (Proc.devRef .tc main_arg4)) := by
  after_results_simp <;> rfl
theorem pre_x : after (hostOps0 (F := Ideal)) W (Proc.devRef .tc main_v10) = catX vInit (hInit (W (Proc.devRef .tc main_arg0)) (W (Proc.devRef .tc main_arg5)) (W (Proc.devRef .tc main_arg6))) := by
  after_results_simp
  refine catX_of ?_ ?_ <;> (after_results_simp <;> rfl)
theorem pre_xs : after (hostOps0 (F := Ideal)) W (Proc.devRef .tc main_v17) = gath (catX vInit (hInit (W (Proc.devRef .tc main_arg0)) (W (Proc.devRef .tc main_arg5)) (W (Proc.devRef .tc main_arg6)))) (W (Proc.devRef .tc main_arg1)) := by
  after_results_simp
  refine gath_of (catX_of ?_ ?_) rfl <;> (after_results_simp <;> rfl)
theorem pre_xr : after (hostOps0 (F := Ideal)) W (Proc.devRef .tc main_v24) = gath (catX vInit (hInit (W (Proc.devRef .tc main_arg0)) (W (Proc.devRef .tc main_arg5)) (W (Proc.devRef .tc main_arg6)))) (W (Proc.devRef .tc main_arg2)) := by
  after_results_simp
  refine gath_of (catX_of ?_ ?_) rfl <;> (after_results_simp <;> rfl)
theorem pre_wa : after (hostOps0 (F := Ideal)) W (Proc.devRef .tc main_v27) = extractStridedSlice S34x32 ![0, 0] (PW layerW0 W).wm Facts₀.slices_S70x32_S34x32_0_0 := by
  after_results_simp <;> rfl
theorem pre_wb : after (hostOps0 (F := Ideal)) W (Proc.devRef .tc main_v28) = extractStridedSlice S34x32 ![34, 0] (PW layerW0 W).wm Facts₀.slices_S70x32_S34x32_34_0 := by
  after_results_simp <;> rfl
theorem pre_wc : after (hostOps0 (F := Ideal)) W (Proc.devRef .tc main_v29) = extractStridedSlice S2x32 ![68, 0] (PW layerW0 W).wm Facts₀.slices_S70x32_S2x32_68_0 := by
  after_results_simp <;> rfl
theorem pre_bm : after (hostOps0 (F := Ideal)) W (Proc.devRef .tc main_v31) = (PW layerW0 W).bm := by
  after_results_simp <;> rfl

theorem mid_agg : after (hostOps1 (F := Ideal)) W (Proc.devRef .tc main_v35) = aggOf (W (Proc.devRef .tc main_arg2)) (W (Proc.devRef .tc main_v32)) := by
  after_results_simp <;> rfl
theorem mid_wx : after (hostOps1 (F := Ideal)) W (Proc.devRef .tc main_v38) = extractStridedSlice S34x32 ![0, 0] (PW layerW0 W).wn Facts₀.slices_S66x32_S34x32_0_0 := by
  after_results_simp <;> rfl
theorem mid_wg : after (hostOps1 (F := Ideal)) W (Proc.devRef .tc main_v39) = extractStridedSlice S32x32 ![34, 0] (PW layerW0 W).wn Facts₀.slices_S66x32_S32x32_34_0 := by
  after_results_simp <;> rfl
theorem mid_bn : after (hostOps1 (F := Ideal)) W (Proc.devRef .tc main_v41) = (PW layerW0 W).bn := by
  after_results_simp <;> rfl

/-- The three stretches before the mixing kernel, read straight through. -/
abbrev post : Valuation τ sig (Elt Ideal) := after (hostOps2_2 (F := Ideal)) (after (hostOps2_1 (F := Ideal)) (after (hostOps2 (F := Ideal)) W))

theorem post_g : post W (Proc.devRef .tc main_v58) = gNext (W (Proc.devRef .tc main_v8)) (W (Proc.devRef .tc main_v42)) (PW layerW0 W).wg (PW layerW0 W).bg := by
  after_results_simp <;> rfl
theorem post_wmix : post W (Proc.devRef .tc main_v61) = extractStridedSlice S32x32 ![0, 0] (PW layerW0 W).wgn Facts₀.slices_S64x32_S32x32_0_0 := by
  after_results_simp <;> rfl
theorem post_bias : post W (Proc.devRef .tc main_v67) = biasRow (gNext (W (Proc.devRef .tc main_v8)) (W (Proc.devRef .tc main_v42)) (PW layerW0 W).wg (PW layerW0 W).bg) (PW layerW0 W).wgn (PW layerW0 W).bgn := by
  after_results_simp <;> rfl
theorem post_wdv : post W (Proc.devRef .tc main_v69) = (PW layerW0 W).wdv := by
  after_results_simp <;> rfl
theorem post_bdv : post W (Proc.devRef .tc main_v71) = (PW layerW0 W).bdv := by
  after_results_simp <;> rfl

abbrev wrotePre : List (Ref sig .tc) :=
  [main_cst, main_v0, main_c, main_v1, main_cst_0, main_v2, main_v3, main_v4, main_v5, main_v6, main_v7, main_cst_1, main_v8, main_v9, main_v10, main_c_2, main_v11, main_v12, main_c_3, main_v13, main_v14, main_v15, main_v16, main_v17, main_c_4, main_v18, main_v19, main_c_5, main_v20, main_v21, main_v22, main_v23, main_v24, main_v25, main_v26, main_v27, main_v28, main_v29, main_v30, main_v31]
abbrev wroteMid : List (Ref sig .tc) :=
  [main_cst_6, main_v33, main_v34, main_v35, main_v36, main_v37, main_v38, main_v39, main_v40, main_v41]
abbrev wrotePost : List (Ref sig .tc) :=
  [main_cst_7, main_v43, main_v44, main_cst_8, main_v45, main_v46, main_v47, main_v48, main_v49, main_v50, main_v51, main_v52, main_v53, main_v54, main_v55, main_v56, main_v57, main_call0_cst, main_call0_v0, main_v58, main_v59, main_v60, main_v61, main_v62, main_v63, main_v64, main_v65, main_v66, main_v67, main_v68, main_v69, main_v70, main_v71]

/-- Every operation of a stretch writes only references of the stretch's list. -/
theorem wrote_sub : WritesIn hostOps0 wrotePre
    ∧ WritesIn hostOps1 wroteMid
    ∧ WritesIn hostOps2 wrotePost
    ∧ WritesIn hostOps2_1 wrotePost
    ∧ WritesIn hostOps2_2 wrotePost := by
  refine ⟨?_, ?_, ?_, ?_, ?_⟩
  all_goals
    simp only [List.Forall]
    repeat' apply And.intro
    all_goals
      simp only [StableHlo.nullary_writes, StableHlo.unary_writes, StableHlo.binary_writes, StableHlo.ternary_writes, StableHlo.reshape_writes, Finset.singleton_subset_iff, List.mem_toFinset]
      exact List.mem_map_of_mem (by decide)

theorem pre_keep (r : Ref sig .tc) (h : r ∉ wrotePre) : after (hostOps0 (F := Ideal)) W (Proc.devRef .tc r) = W (Proc.devRef .tc r) :=
  after_of_writes_sub _ W wrote_sub.1 h
theorem mid_keep (r : Ref sig .tc) (h : r ∉ wroteMid) : after (hostOps1 (F := Ideal)) W (Proc.devRef .tc r) = W (Proc.devRef .tc r) :=
  after_of_writes_sub _ W wrote_sub.2.1 h
theorem post_keep (r : Ref sig .tc) (h : r ∉ wrotePost) : post W (Proc.devRef .tc r) = W (Proc.devRef .tc r) :=
  (after_of_writes_sub _ _ wrote_sub.2.2.2.2 h).trans ((after_of_writes_sub _ _ wrote_sub.2.2.2.1 h).trans (after_of_writes_sub _ W wrote_sub.2.2.1 h))

end Cert.GNN.KHost0

end
-- ==== Proof.LibMatmul.lean ====
import Idealize.ShloMosaic.Lib.StackMember

noncomputable section

namespace Cert.GNN

open Idealize.ShloMosaic Idealize.ShloMosaic.ValueIdx

/-- An M×K by K×N product into the zero accumulator is the host's product of the same operands; entry (p, q) of that
    is Σ_k x[p,k]·w[k,q]. Both facts are the library's. -/
theorem matmul_plain_apply {M K N : Nat} {φ₁ φ₂ : FTy} (D : DotDims ⟨2, ![M, K]⟩ ⟨2, ![K, N]⟩ ⟨2, ![M, N]⟩)
    (hD : D = DotDims.plain M K N) (x : FVec Ideal ⟨2, ![M, K]⟩ φ₁) (w : FVec Ideal ⟨2, ![K, N]⟩ φ₂) (p : Fin M) (q : Fin N) :
    matmul D none x w (constant (F := Ideal) ⟨2, ![M, N]⟩ .f32 0x00000000#32) (ix2 p q)
      = ∑ k : Fin K, x (ix2 p k) * w (ix2 k q) := by
  subst hD
  rw [matmul_zero_eq_dotGeneral, StackMember.dotGeneral_plain_apply]

end Cert.GNN

end
-- ==== Proof.MsgPay0.lean ====
import proofs.«424204_j12678743458345_1_alg».proof.Proof.Spec
import proofs.«424204_j12678743458345_1_alg».proof.Proof.LibMatmul
import proofs.«424204_j12678743458345_1_alg».proof.Proof.Gen.KernelIdeal.Skeleton
import Idealize.ShloMosaic.PureOps.Ideal.Laws
import Idealize.ShloMosaic.Lib.ValueIdx
import Idealize.ShloMosaic.Lib.ValueLayout

noncomputable section

namespace Cert.GNN

open Idealize.ShloMosaic Idealize.ShloMosaic.ValueIdx Cert.KernelIdeal Cert.KernelIdeal.Gen

theorem bias_row_apply (b : FVec Ideal S32 .f32) (p : Fin 50000) (q : Fin 32) :
    broadcastTo S50000x32 (shapeCast S1x32 (shapeCast S32 b shapeCasts_S32_S32) shapeCasts_S32_S1x32)
      broadcasts_S1x32_S50000x32 (ix2 p q) = b (ix1 q) := by
  rw [broadcastTo_1b_ab_apply, shapeCast_a_1a_apply, shapeCast_self]

theorem mask_col_apply (mk : FVec Ideal S50000x1 .f32) (p : Fin 50000) (q : Fin 32) :
    broadcastTo S50000x32 (shapeCast S50000x1 mk shapeCasts_S50000x1_S50000x1)
      broadcasts_S50000x1_S50000x32 (ix2 p q) = mk (ix2 p 0) := by
  rw [shapeCast_self]
  refine broadcastTo_apply mk _ (ix2 p q) (ix2 p (0 : Fin 1)) fun ax => ?_
  match ax with
  | ⟨0, _⟩ =>
    show p.val = if (50000 : Nat) = 1 then 0 else p.val
    rw [if_neg (by decide)]
  | ⟨1, _⟩ => rfl

/-- Entry (p, q) of the block the body stores is the message entry of row p of the block's own operands. -/
theorem k0_pay1_apply (v0 v3 : Vec Ideal S50000x34 .f32) (v6 : Vec Ideal S50000x2 .f32) (v8 v11 : Vec Ideal S34x32 .f32)
    (v14 : Vec Ideal S2x32 .f32) (v22 : Vec Ideal S32 .f32) (v29 : Vec Ideal S50000x1 .f32) (p : Fin 50000) (q : Fin 32) :
    k0_pay1 (F := Ideal) v0 v3 v6 v8 v11 v14 v22 v29 (ix2 p q)
      = msgAt (E := 50000) v0 v3 v6 v29 v8 v11 v14 v22 p q := by
  unfold k0_pay1 msgAt
  simp only [mulf_apply, maximumf_apply, addf_apply, broadcast_apply]
  rw [matmul_plain_apply dot_S50000x34_S34x32_S50000x32_1_0_0_1_n_n rfl,
    matmul_plain_apply dot_S50000x34_S34x32_S50000x32_1_0_0_1_n_n rfl,
    matmul_plain_apply dot_S50000x2_S2x32_S50000x32_1_0_0_1_n_n rfl, bias_row_apply, mask_col_apply]
  simp only [truncf_apply, shapeCast_self]
  rfl

end Cert.GNN

end
-- ==== Proof.MsgRegion0.lean ====
import proofs.«424204_j12678743458345_1_alg».proof.Proof.MsgPay0
import proofs.«424204_j12678743458345_1_alg».proof.Proof.Gen.KernelIdeal.Frame
import Idealize.ShloMosaic.Lib.Pipeline.Value
import Idealize.ShloMosaic.Lib.ValueIdx

noncomputable section

namespace Cert.GNN

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem msg_zero_offsets2 : (![0, 0] : Fin 2 → Nat) = fun _ => 0 := funext fun a => by fin_cases a <;> rfl
theorem msg_zero_offsets1 : (![0] : Fin 1 → Nat) = fun _ => 0 := funext fun a => by fin_cases a <;> rfl

/-- The three index maps at point t: block (t, 0), block (0, 0), block (0). -/
theorem idx_row : ∀ t : Fin grid0.N, cc0_transform_0 (grid0.coords t) = ![t.val, 0] := by decide +kernel
theorem idx_zero2 (t : Fin grid0.N) (a : Fin 2) : cc0_transform_4 (grid0.coords t) a = 0 := by fin_cases a <;> rfl
theorem idx_zero1 (t : Fin grid0.N) (a : Fin 1) : cc0_transform_7 (grid0.coords t) a = 0 := by fin_cases a <;> rfl

/-- x is rows t·B … t·B + B − 1 of A. -/
def RowBlk {R C B : Nat} {α : Type} (t : Nat) (A : (⟨2, ![R, C]⟩ : Shape).Idx → α) (x : (⟨2, ![B, C]⟩ : Shape).Idx → α) : Prop :=
  ∀ (p : Fin B) (k : Fin C) (e : Fin R), e.val = t * B + p.val → x (ix2 p k) = A (ix2 e k)

/-- An array read through a block at block index (t, 0) is its rows t·B …. -/
theorem rowBlk {R C B : Nat} {α : Type} (A : (⟨2, ![R, C]⟩ : Shape).Idx → α)
    {ι : (⟨2, ![B, C]⟩ : Shape).Idx → (⟨2, ![R, C]⟩ : Shape).Idx} {i : Fin 2 → Nat} {t : Nat}
    (hι : ∀ y a, (ι y a : Nat) = i a * ![B, C] a + y a) (hi : i = ![t, 0]) : RowBlk t A fun y => A (ι y) := by
  subst hi
  refine fun p k e he => congrArg A (funext fun a => Fin.ext ((hι _ a).trans ?_))
  match a with
  | ⟨0, _⟩ => show t * B + p.val = e.val; omega
  | ⟨1, _⟩ => show 0 * C + k.val = k.val; omega

/-- An array read through a block of its own shape at block index 0 is the array. -/
theorem wholeBlk {s : Shape} {α : Type} (A : s.Idx → α) {ι : s.Idx → s.Idx} {i : Fin s.rank → Nat}
    (hι : ∀ y a, (ι y a : Nat) = i a * s.size a + y a) (hi : ∀ a, i a = 0) : A = fun y => A (ι y) :=
  funext fun y => congrArg A (funext fun a => Fin.ext (by rw [hι, hi, Nat.zero_mul, Nat.zero_add]))

/-- An entry of the stored block is the message entry of the array row under it. -/
theorem msg_point {xs xr : Vec Ideal S50000x34 .f32} {ef : Vec Ideal S50000x2 .f32} {mk : Vec Ideal S50000x1 .f32}
    {As Ar : S3200000x34.Idx → EReal} {Af : S3200000x2.Idx → EReal} {Am : S3200000x1.Idx → EReal}
    {wa wb wa' wb' : Vec Ideal S34x32 .f32} {wc wc' : Vec Ideal S2x32 .f32} {b b' : Vec Ideal S32 .f32} {t : Nat}
    (hs : RowBlk t As xs) (hr : RowBlk t Ar xr) (hf : RowBlk t Af ef) (hm : RowBlk t Am mk)
    (ha : wa' = wa) (hb : wb' = wb) (hc : wc' = wc) (hbias : b' = b)
    {ι : S50000x32.Idx → S3200000x32.Idx} {i : Fin 2 → Nat}
    (hι : ∀ y a, (ι y a : Nat) = i a * S50000x32.size a + y a) (hi : i = ![t, 0]) (j : S50000x32.Idx) :
    k0_pay1 (F := Ideal) xs xr ef wa wb wc b mk j = msgG (E := 3200000) As Ar Af Am wa' wb' wc' b' (ι j) := by
  subst ha hb hc hbias hi
  obtain ⟨p, q, rfl⟩ : ∃ (p : Fin 50000) (q : Fin 32), j = ix2 p q := ⟨j 0, j 1, eq_ix2 j⟩
  have e0 : (ι (ix2 p q) 0 : Nat) = t * 50000 + p.val := hι _ _
  have e1 : ι (ix2 p q) 1 = q := Fin.ext ((hι _ _).trans (by show 0 * 32 + q.val = q.val; omega))
  rw [k0_pay1_apply]
  unfold msgG msgAt
  rw [e1]
  simp only [fun k => hs p k _ e0, fun k => hr p k _ e0, fun k => hf p k _ e0, hm p 0 _ e0]

/-- The output block after the body is the payload. -/
theorem out_eq (x0 x1 : Vec Ideal S50000x34 .f32) (x2 : Vec Ideal S50000x2 .f32) (x3 : Vec Ideal S50000x1 .f32)
    (x4 x5 : Vec Ideal S34x32 .f32) (x6 : Vec Ideal S2x32 .f32) (x7 : Vec Ideal S32 .f32) :
    out0_8 x0 x1 x2 x3 x4 x5 x6 x7 = k0_pay1 x0 x1 x2 x4 x5 x6 x7 x3 := by
  unfold out0_8
  rw [View.canon_unit_zero msg_zero_offsets2]
  simp only [View.ld_unit_zero (S := S50000x34) msg_zero_offsets2, View.ld_unit_zero (S := S50000x2) msg_zero_offsets2,
    View.ld_unit_zero (S := S34x32) msg_zero_offsets2, View.ld_unit_zero (S := S2x32) msg_zero_offsets2,
    View.ld_unit_zero (S := S32) msg_zero_offsets1, View.ld_unit_zero (S := S50000x1) msg_zero_offsets2]

theorem blk_pt (i : S3200000x32.Idx) : ∃ t : Fin grid0.N, t.val = (i 0).val / 50000 :=
  ⟨⟨_, Nat.lt_of_lt_of_eq (by have := idx2_lt0 i; omega) N_0.symm⟩, rfl⟩

/-- Row r lies in row block r / 50000. -/
theorem mem_rowBlk (i : S3200000x32.Idx) {ix : Fin 2 → Nat} {t : Nat} (ht : t = (i 0).val / 50000) (h : ix = ![t, 0]) (a : Fin 2) :
    ix a * S50000x32.size a ≤ (i a).val ∧ (i a).val < ix a * S50000x32.size a + S50000x32.size a := by
  subst h ht
  match a with
  | ⟨0, _⟩ => show (i 0).val / 50000 * 50000 ≤ (i 0).val ∧ (i 0).val < (i 0).val / 50000 * 50000 + 50000; omega
  | ⟨1, _⟩ => show 0 * 32 ≤ (i 1).val ∧ (i 1).val < 0 * 32 + 32; have := idx2_lt1 i; omega

theorem region0_out (c : Dev nD) :
    (dat0 (F := Ideal) V c).arrAt 8 cfg0.N
      = msgG (E := 3200000) (V c main_v17) (V c main_v24) (V c main_arg3) (V c main_v9) (V c main_v27) (V c main_v28) (V c main_v29) (V c main_v31) := by
  refine (dat0 V c).arrAt_eq_of_cover 8 _ (fun t _ => ?_) fun (i : S3200000x32.Idx) => ?_
  · show (cfg0.win 8).cut (grid0.coords t) ((dat0 V c).after 8 t) = _
    rw [after0_8, out_eq]
    exact funext fun j => msg_point (rowBlk _ (win0_0.rect_emb_val t) (idx_row t)) (rowBlk _ (win0_1.rect_emb_val t) (idx_row t))
      (rowBlk _ (win0_2.rect_emb_val t) (idx_row t)) (rowBlk _ (win0_3.rect_emb_val t) (idx_row t))
      (wholeBlk _ (win0_4.rect_emb_val t) (idx_zero2 t)) (wholeBlk _ (win0_5.rect_emb_val t) (idx_zero2 t))
      (wholeBlk _ (win0_6.rect_emb_val t) (idx_zero2 t)) (wholeBlk _ (win0_7.rect_emb_val t) (idx_zero1 t))
      (win0_8.rect_emb_val t) (idx_row t) j
  · obtain ⟨t, ht⟩ := blk_pt i
    refine ⟨t, flush0_8 t, ?_⟩
    show i ∈ ((View.whole main_v32).slice (win0_8.rect t)).set
    rw [View.set_slice_whole, Rect.mem_set_unit]
    exact mem_rowBlk i ht (idx_row t)

end Cert.GNN

end
-- ==== Proof.NodeAPay1.lean ====
import proofs.«424204_j12678743458345_1_alg».proof.Proof.Spec
import proofs.«424204_j12678743458345_1_alg».proof.Proof.LibMatmul
import proofs.«424204_j12678743458345_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

noncomputable section

namespace Cert.GNN

open Idealize.ShloMosaic Idealize.ShloMosaic.ValueIdx Cert.KernelIdeal Cert.KernelIdeal.Gen

/-- Entry (p, q) of the payload is the node update at row p of the two row blocks. -/
theorem k1_pay1_apply (v0 : Vec Ideal S25000x34 .f32) (v3 : Vec Ideal S25000x32 .f32) (v6 : Vec Ideal S34x32 .f32)
    (v9 : Vec Ideal S32x32 .f32) (v15 : Vec Ideal S32 .f32) (p : Fin 25000) (q : Fin 32) :
    k1_pay1 (F := Ideal) v0 v3 v6 v9 v15 (ix2 p q) = nodeAAt (N := 25000) v0 v3 v6 v9 v15 p q := by
  unfold k1_pay1 nodeAAt
  rw [maximumf_apply, addf_apply, addf_apply, broadcast_apply,
    matmul_plain_apply dot_S25000x34_S34x32_S25000x32_1_0_0_1_n_n rfl,
    matmul_plain_apply dot_S25000x32_S32x32_S25000x32_1_0_0_1_n_n rfl,
    broadcastTo_1b_ab_apply, shapeCast_a_1a_apply]
  simp only [truncf_apply, shapeCast_self]
  rfl

theorem nodeA_zero2 : (![0, 0] : Fin 2 → Nat) = fun _ => 0 := funext fun a => by fin_cases a <;> rfl
theorem nodeA_zero1 : (![0] : Fin 1 → Nat) = fun _ => 0 := funext fun a => by fin_cases a <;> rfl

/-- A map of indices that adds block index 0 times the block size on every axis is the identity. -/
theorem nodeA_comp_zero {S : Shape} {α : Type} (f : S.Idx → α) (e : S.Idx → S.Idx)
    (h : ∀ x a, (e x a : ℕ) = 0 * S.size a + x a) : (fun x => f (e x)) = f :=
  funext fun x => congrArg f (funext fun a => Fin.ext ((h x a).trans (by omega)))

/-- The update of a row reads that row alone: when e0, e1, e5 send row p of a block to row t·25000 + p of the arrays and
    keep the column, and e2, e3, e4 are the identity, the node update of X∘e0, A∘e1, W1∘e2, W2∘e3, b∘e4 is the whole-array
    node update composed with e5. -/
theorem nodeA_block (X : S100000x34.Idx → EReal) (A : S100000x32.Idx → EReal) (W1 : S34x32.Idx → EReal)
    (W2 : S32x32.Idx → EReal) (b : S32.Idx → EReal) (e0 : S25000x34.Idx → S100000x34.Idx)
    (e1 : S25000x32.Idx → S100000x32.Idx) (e2 : S34x32.Idx → S34x32.Idx) (e3 : S32x32.Idx → S32x32.Idx)
    (e4 : S32.Idx → S32.Idx) (e5 : S25000x32.Idx → S100000x32.Idx) (t : ℕ)
    (h0 : ∀ x a, (e0 x a : ℕ) = ![t, 0] a * S25000x34.size a + x a)
    (h1 : ∀ x a, (e1 x a : ℕ) = ![t, 0] a * S25000x32.size a + x a)
    (h2 : ∀ x a, (e2 x a : ℕ) = 0 * S34x32.size a + x a) (h3 : ∀ x a, (e3 x a : ℕ) = 0 * S32x32.size a + x a)
    (h4 : ∀ x a, (e4 x a : ℕ) = 0 * S32.size a + x a)
    (h5 : ∀ x a, (e5 x a : ℕ) = ![t, 0] a * S25000x32.size a + x a) (j : S25000x32.Idx) :
    out1_5 (F := Ideal) (fun x => X (e0 x)) (fun x => A (e1 x)) (fun x => W1 (e2 x)) (fun x => W2 (e3 x))
      (fun x => b (e4 x)) j = nodeAG (N := 100000) X A W1 W2 b (e5 j) := by
  rw [nodeA_comp_zero W1 e2 h2, nodeA_comp_zero W2 e3 h3, nodeA_comp_zero b e4 h4]
  unfold out1_5
  rw [View.canon_unit_zero nodeA_zero2]
  simp only [View.ld_unit_zero (S := S25000x34) nodeA_zero2, View.ld_unit_zero (S := S25000x32) nodeA_zero2,
    View.ld_unit_zero (S := S34x32) nodeA_zero2, View.ld_unit_zero (S := S32x32) nodeA_zero2,
    View.ld_unit_zero (S := S32) nodeA_zero1]
  obtain ⟨p, q, rfl⟩ : ∃ (p : Fin 25000) (q : Fin 32), j = ix2 p q := ⟨j 0, j 1, eq_ix2 j⟩
  rw [k1_pay1_apply]
  show _ = nodeAAt (N := 100000) X A W1 W2 b (e5 (ix2 p q) 0) (e5 (ix2 p q) 1)
  have hq : e5 (ix2 p q) 1 = q := Fin.ext ((h5 _ 1).trans (Nat.zero_add _))
  have hX : ∀ k : Fin 34, X (e0 (ix2 p k)) = X (ix2 (e5 (ix2 p q) 0) k) := fun k => congrArg X
    (Shape.idx_ext₂ ((h0 _ 0).trans (h5 (ix2 p q) 0).symm) ((h0 _ 1).trans (Nat.zero_add _)))
  have hA : ∀ k : Fin 32, A (e1 (ix2 p k)) = A (ix2 (e5 (ix2 p q) 0) k) := fun k => congrArg A
    (Shape.idx_ext₂ ((h1 _ 0).trans (h5 (ix2 p q) 0).symm) ((h1 _ 1).trans (Nat.zero_add _)))
  unfold nodeAAt
  simp only [hX, hA, hq]

/-- Row r lies in block r / 25000 of the rows and every column in block 0 of the columns. -/
theorem nodeA_row_mem (i : S100000x32.Idx) (ix : Fin 2 → ℕ) (h : ∀ a, ix a = ![(i 0).val / 25000, 0] a) (a : Fin 2) :
    ix a * S25000x32.size a ≤ (i a).val ∧ (i a).val < ix a * S25000x32.size a + S25000x32.size a := by
  have h0 : (i 0).val < 100000 := (i 0).isLt
  have h1 : (i 1).val < 32 := (i 1).isLt
  rw [h a]
  match a with
  | ⟨0, _⟩ => show (i 0).val / 25000 * 25000 ≤ (i 0).val ∧ (i 0).val < (i 0).val / 25000 * 25000 + 25000; omega
  | ⟨1, _⟩ => show 0 * 32 ≤ (i 1).val ∧ (i 1).val < 0 * 32 + 32; omega

end Cert.GNN

end
-- ==== Proof.NodeARegion1.lean ====
import proofs.«424204_j12678743458345_1_alg».proof.Proof.NodeAPay1

set_option maxRecDepth 16384

noncomputable section

namespace Cert.GNN

open Idealize.ShloMosaic Idealize.ShloMosaic.TcCoe Cert.KernelIdeal Cert.KernelIdeal.Gen

variable (V : (c : Dev nD) → (b : Ref sig .tc) → Buf (Elt Ideal) ((c : Thread nD τ).loc b))

/-- The block index at point t: (t, 0) for the two row-blocked inputs and the output, 0 for the weights and the bias. -/
theorem block_index1 : ∀ t : Fin cfg1.N,
    (∀ a, win1_0.index t a = ![t.val, 0] a) ∧ (∀ a, win1_1.index t a = ![t.val, 0] a) ∧ (∀ a, win1_2.index t a = 0)
    ∧ (∀ a, win1_3.index t a = 0) ∧ (∀ a, win1_4.index t a = 0) ∧ (∀ a, win1_5.index t a = ![t.val, 0] a) :=
  (by decide +kernel : ∀ t : Fin grid1.N, _)

/-- Block t of the output is block t of the whole-array node update, and the four blocks cover the rows. -/
theorem region1_out (c : Dev nD) :
    (dat1 (F := Ideal) V c).arrAt 5 cfg1.N
      = nodeAG (N := 100000) (V c main_v10) (V c main_v35) (V c main_v38) (V c main_v39) (V c main_v41) := by
  refine (dat1 (F := Ideal) V c).arrAt_eq_of_cover 5 _ (fun t _ => ?_) fun i => ?_
  · obtain ⟨i0, i1, i2, i3, i4, i5⟩ := block_index1 t
    show (cfg1.win 5).cut (grid1.coords t) ((dat1 V c).after 5 t) = _
    rw [after1_5]
    exact funext (nodeA_block (V c main_v10) (V c main_v35) (V c main_v38) (V c main_v39) (V c main_v41)
      (win1_0.rect t).emb (win1_1.rect t).emb (win1_2.rect t).emb (win1_3.rect t).emb (win1_4.rect t).emb
      (win1_5.rect t).emb t.val
      (fun x a => i0 a ▸ win1_0.rect_emb_val t x a) (fun x a => i1 a ▸ win1_1.rect_emb_val t x a)
      (fun x a => i2 a ▸ win1_2.rect_emb_val t x a) (fun x a => i3 a ▸ win1_3.rect_emb_val t x a)
      (fun x a => i4 a ▸ win1_4.rect_emb_val t x a) (fun x a => i5 a ▸ win1_5.rect_emb_val t x a))
  · have hi : (i 0).val < 100000 := (i 0).isLt
    obtain ⟨t, ht⟩ : ∃ t : Fin cfg1.N, t.val = (i 0).val / 25000 :=
      ⟨⟨(i 0).val / 25000, by rw [show cfg1.N = 4 from N_1]; omega⟩, rfl⟩
    refine ⟨t, flush1_5 t, ?_⟩
    show i ∈ ((View.whole main_v42).slice (win1_5.rect t)).set
    rw [View.set_slice_whole, Rect.mem_set_unit]
    exact nodeA_row_mem i _ fun a => ht ▸ (block_index1 t).2.2.2.2.2 a

end Cert.GNN

end
-- ==== Proof.NodeBPay2.lean ====
import proofs.«424204_j12678743458345_1_alg».proof.Proof.Spec
import proofs.«424204_j12678743458345_1_alg».proof.Proof.LibMatmul
import proofs.«424204_j12678743458345_1_alg».proof.Proof.Gen.KernelIdeal.Skeleton
import Idealize.ShloMosaic.Lib.ValueIdx
import Idealize.ShloMosaic.PureOps.Ideal.Laws
import Idealize.ShloMosaic.Lib.Pipeline.Value

noncomputable section

namespace Cert.GNN

open Idealize.ShloMosaic Idealize.ShloMosaic.ValueIdx Cert.KernelIdeal Cert.KernelIdeal.Gen

theorem k2_pay1_apply (v0 : Vec Ideal S25000x32 .f32) (v3 : Vec Ideal S32x32 .f32) (v7 : Vec Ideal S1x32 .f32) (p : Fin 25000) (q : Fin 32) :
    k2_pay1 (F := Ideal) v0 v3 v7 (ix2 p q) = nodeBHAt (N := 25000) v0 v3 v7 p q := by
  unfold k2_pay1 nodeBHAt
  rw [maximumf_apply, addf_apply, broadcast_apply, matmul_plain_apply dot_S25000x32_S32x32_S25000x32_1_0_0_1_n_n rfl,
    broadcastTo_apply _ broadcasts_S1x32_S25000x32 (ix2 p q) (ix2 0 q) (Fin.forall_fin_two.2 ⟨rfl, rfl⟩), shapeCast_self v7]
  refine congrArg₂ max (congrArg₂ (· + ·) (Finset.sum_congr rfl fun k _ => ?_) rfl) rfl
  rw [truncf_apply, truncf_apply, shapeCast_self, shapeCast_self]

theorem k2_pay2_apply (v0 : Vec Ideal S25000x32 .f32) (v3 : Vec Ideal S32x32 .f32) (v7 : Vec Ideal S1x32 .f32) (v15 : Vec Ideal S32x2 .f32)
    (v19 : Vec Ideal S2 .f32) (v24 : Vec Ideal S25000x2 .f32) (p : Fin 25000) (q : Fin 2) :
    k2_pay2 (F := Ideal) v0 v3 v7 v15 v19 v24 (ix2 p q) = nodeBVAt (N := 25000) v0 v24 v3 v7 v15 v19 p q := by
  unfold k2_pay2 nodeBVAt
  rw [addf_apply, addf_apply, matmul_plain_apply dot_S25000x32_S32x2_S25000x2_1_0_0_1_n_n rfl,
    broadcastTo_apply _ broadcasts_S1x2_S25000x2 (ix2 p q) (ix2 0 q) (Fin.forall_fin_two.2 ⟨rfl, rfl⟩),
    shapeCast_apply _ shapeCasts_S2_S1x2 (ix2 0 q) (ix1 q) (by rw [Shape.rowMajor_val_one, Shape.rowMajor_val_two]; exact (Nat.zero_add _).symm),
    shapeCast_self v19, shapeCast_self v24]
  refine congrArg₂ (· + ·) rfl (congrArg₂ (· + ·) (Finset.sum_congr rfl fun k _ => ?_) rfl)
  rw [truncf_apply, truncf_apply, shapeCast_self, k2_pay1_apply]

end Cert.GNN

end
-- ==== Proof.NodeBRegion2.lean ====
import proofs.«424204_j12678743458345_1_alg».proof.Proof.NodeBPay2
import proofs.«424204_j12678743458345_1_alg».proof.Proof.Gen.KernelIdeal.Frame
import Idealize.ShloMosaic.Lib.Pipeline.Value

set_option maxRecDepth 16384

noncomputable section

namespace Cert.GNN

open Idealize.ShloMosaic Idealize.ShloMosaic.TcCoe Idealize.ShloMosaic.ValueIdx Idealize.SL.Sem
open Idealize.ShloMosaic.Pipeline (Dat)
open Cert.KernelIdeal Cert.KernelIdeal.Gen

namespace NodeBRegion2

theorem nodeBHAt_row {N M : Nat} (h : (⟨2, ![N, 32]⟩ : Shape).Idx → EReal) (h' : (⟨2, ![M, 32]⟩ : Shape).Idx → EReal)
    (w : S32x32.Idx → EReal) (bias : S1x32.Idx → EReal) (n : Fin N) (n' : Fin M)
    (hrow : ∀ k : Fin 32, h (ix2 n k) = h' (ix2 n' k)) (j : Fin 32) : nodeBHAt h w bias n j = nodeBHAt h' w bias n' j := by
  unfold nodeBHAt
  exact congrArg₂ max (congrArg₂ (· + ·) (Finset.sum_congr rfl fun k _ => by rw [hrow k]) rfl) rfl

/-- An element of a window's block sits in the array, on each axis, at block index times block size plus its own coordinate. -/
theorem places {G : Pipeline.Grid} (w : Pipeline.Window sig G) (t : Fin G.N) {b : Fin w.shape.rank → ℕ} (h : w.index t = b)
    (y : (w.xblock (G.coords t)).Idx) (a : Fin w.shape.rank) : ((w.rect t).emb y a : ℕ) = b a * w.size a + y a :=
  h ▸ w.rect_emb_val t y a

/-- At block index zero the block is the array. -/
theorem place_id {s : Shape} {e : s.Idx → s.Idx} (h : ∀ y a, (e y a : ℕ) = 0 * s.size a + y a) : e = id :=
  funext fun y => funext fun a => Fin.ext ((h y a).trans (by rw [Nat.zero_mul, Nat.zero_add]; rfl))

/-- At block index (b, 0) of a row-blocked array, entry (p, k) of the block is entry (b·n + p, k) of the array. -/
theorem place {n m N : ℕ} {e : (⟨2, ![n, m]⟩ : Shape).Idx → (⟨2, ![N, m]⟩ : Shape).Idx} {b : ℕ}
    (h : ∀ y a, (e y a : ℕ) = ![b, 0] a * ![n, m] a + y a) (p : Fin n) (k : Fin m) {r : Fin N} (hr : (r : ℕ) = b * n + p) :
    e (ix2 p k) = ix2 r k :=
  Shape.idx_ext₂ ((h _ 0).trans hr.symm) ((h _ 1).trans (by show 0 * m + (k : ℕ) = k; omega))

theorem zero_off2 : (![0, 0] : Fin 2 → Nat) = fun _ => 0 := funext fun a => by fin_cases a <;> rfl
theorem zero_off1 : (![0] : Fin 1 → Nat) = fun _ => 0 := funext fun a => by fin_cases a <;> rfl

theorem blockH (A0 : S100000x32.Idx → EReal) (A2 : S32x32.Idx → EReal) (A3 : S1x32.Idx → EReal)
    {e0 e6 : S25000x32.Idx → S100000x32.Idx} {e2 : S32x32.Idx → S32x32.Idx} {e3 : S1x32.Idx → S1x32.Idx} {b : ℕ}
    (h0 : ∀ y a, (e0 y a : ℕ) = ![b, 0] a * S25000x32.size a + y a)
    (h2 : ∀ y a, (e2 y a : ℕ) = 0 * S32x32.size a + y a)
    (h3 : ∀ y a, (e3 y a : ℕ) = 0 * S1x32.size a + y a)
    (h6 : ∀ y a, (e6 y a : ℕ) = ![b, 0] a * S25000x32.size a + y a) :
    (View.canon [⟨r2_0, k2_pay1 (F := Ideal) (View.ld (fun x => A0 (e0 x)) r2_0) (View.ld (fun x => A2 (e2 x)) r2_1)
        (View.ld (fun x => A3 (e3 x)) r2_2)⟩] : Vec Ideal S25000x32 .f32) = fun j => nodeBH A0 A2 A3 (e6 j) := by
  obtain rfl := place_id h2
  obtain rfl := place_id h3
  rw [View.canon_unit_zero zero_off2, View.ld_unit_zero zero_off2, View.ld_unit_zero zero_off2, View.ld_unit_zero zero_off2]
  funext j
  obtain ⟨p, q, rfl⟩ : ∃ p q, j = ix2 p q := ⟨j 0, j 1, eq_ix2 j⟩
  have hr := h6 (ix2 p q) 0
  rw [k2_pay1_apply, place h6 p q hr]
  exact nodeBHAt_row _ A0 A2 A3 p _ (fun k => congrArg A0 (place h0 p k hr)) q

theorem blockV (A0 : S100000x32.Idx → EReal) (A1 : S100000x2.Idx → EReal) (A2 : S32x32.Idx → EReal) (A3 : S1x32.Idx → EReal)
    (A4 : S32x2.Idx → EReal) (A5 : S2.Idx → EReal)
    {e0 : S25000x32.Idx → S100000x32.Idx} {e1 e7 : S25000x2.Idx → S100000x2.Idx} {e2 : S32x32.Idx → S32x32.Idx}
    {e3 : S1x32.Idx → S1x32.Idx} {e4 : S32x2.Idx → S32x2.Idx} {e5 : S2.Idx → S2.Idx} {b : ℕ}
    (h0 : ∀ y a, (e0 y a : ℕ) = ![b, 0] a * S25000x32.size a + y a)
    (h1 : ∀ y a, (e1 y a : ℕ) = ![b, 0] a * S25000x2.size a + y a)
    (h2 : ∀ y a, (e2 y a : ℕ) = 0 * S32x32.size a + y a)
    (h3 : ∀ y a, (e3 y a : ℕ) = 0 * S1x32.size a + y a)
    (h4 : ∀ y a, (e4 y a : ℕ) = 0 * S32x2.size a + y a)
    (h5 : ∀ y a, (e5 y a : ℕ) = 0 * S2.size a + y a)
    (h7 : ∀ y a, (e7 y a : ℕ) = ![b, 0] a * S25000x2.size a + y a) :
    (View.canon [⟨r2_5, k2_pay2 (F := Ideal) (View.ld (fun x => A0 (e0 x)) r2_0) (View.ld (fun x => A2 (e2 x)) r2_1)
        (View.ld (fun x => A3 (e3 x)) r2_2) (View.ld (fun x => A4 (e4 x)) r2_3) (View.ld (fun x => A5 (e5 x)) r2_4)
        (View.ld (fun x => A1 (e1 x)) r2_5)⟩] : Vec Ideal S25000x2 .f32) = fun j => nodeBV A0 A1 A2 A3 A4 A5 (e7 j) := by
  obtain rfl := place_id h2
  obtain rfl := place_id h3
  obtain rfl := place_id h4
  obtain rfl := place_id h5
  rw [View.canon_unit_zero zero_off2, View.ld_unit_zero zero_off2, View.ld_unit_zero zero_off2, View.ld_unit_zero zero_off2,
    View.ld_unit_zero zero_off2, View.ld_unit_zero zero_off1, View.ld_unit_zero zero_off2]
  funext j
  obtain ⟨p, q, rfl⟩ : ∃ p q, j = ix2 p q := ⟨j 0, j 1, eq_ix2 j⟩
  have hr := h7 (ix2 p q) 0
  rw [k2_pay2_apply, place h7 p q hr]
  show nodeBVAt _ _ _ _ _ _ p q = nodeBVAt A0 A1 A2 A3 A4 A5 _ q
  unfold nodeBVAt
  exact congrArg₂ (· + ·) (congrArg A1 (place h1 p q hr)) (congrArg₂ (· + ·) (Finset.sum_congr rfl fun k _ =>
    congrArg₂ (· * ·) (nodeBHAt_row _ A0 A2 A3 p _ (fun k' => congrArg A0 (place h0 p k' hr)) k) rfl) rfl)

/-- The block row of an array row, as a point of a grid of four. -/
def rowPt {N : ℕ} (h : N = 4) (i : Fin 100000) : Fin N := ⟨i / 25000, h ▸ Nat.div_lt_of_lt_mul (k := 4) i.isLt⟩

/-- An index of a row-blocked array lies in the block of its row's quotient by the block height. -/
theorem mem_rowBlock {N n m : ℕ} {idx : Fin 2 → ℕ} {inb} {S : Finset (⟨2, ![N, m]⟩ : Shape).Idx}
    (hS : S = (Rect.unit (s := ⟨2, ![N, m]⟩) (fun a => idx a * ![n, m] a) ![n, m] inb).set)
    (i : (⟨2, ![N, m]⟩ : Shape).Idx) (hn : 0 < n) (h : idx = ![i 0 / n, 0]) : i ∈ S := by
  subst hS h
  have hm : (i 1 : ℕ) < m := (i 1).isLt
  refine Rect.mem_set_unit.2 (Fin.forall_fin_two.2 ⟨⟨Nat.div_mul_le_self _ _, Nat.lt_div_mul_add hn⟩, ?_⟩)
  show 0 * m ≤ (i 1 : ℕ) ∧ (i 1 : ℕ) < 0 * m + m
  omega

theorem idx : ∀ t : Fin cfg2.N, (win2_6.index t = ![t.val, 0] ∧ win2_7.index t = ![t.val, 0]) ∧ win2_0.index t = ![t.val, 0]
    ∧ win2_1.index t = ![t.val, 0] ∧ (win2_2.index t = fun _ => 0) ∧ (win2_3.index t = fun _ => 0) ∧ (win2_4.index t = fun _ => 0)
    ∧ (win2_5.index t = fun _ => 0) :=
  (by decide +kernel : ∀ t : Fin grid2.N, _)

variable (V : (c : Dev nD) → (b : Ref sig .tc) → Buf (Elt Ideal) ((c : Thread nD τ).loc b))

theorem flushH (c : Dev nD) (t : Fin cfg2.N) : (dat2 (F := Ideal) V c).flushed 6 t
    = ((cfg2.win 6).blk t).view.read (Elt Ideal) (nodeBH (N := 100000) (V c main_v42) (V c main_v61) (V c main_v67)) := by
  obtain ⟨⟨h6, -⟩, h0, -, h2, h3, -, -⟩ := idx t
  show (cfg2.win 6).cut _ ((dat2 V c).after 6 t) = _
  rw [after2_6]
  exact blockH (V c main_v42) (V c main_v61) (V c main_v67) (places win2_0 t h0) (places win2_2 t h2) (places win2_3 t h3)
    (places win2_6 t h6)

theorem flushV (c : Dev nD) (t : Fin cfg2.N) : (dat2 (F := Ideal) V c).flushed 7 t
    = ((cfg2.win 7).blk t).view.read (Elt Ideal)
        (nodeBV (N := 100000) (V c main_v42) (V c main_v3) (V c main_v61) (V c main_v67) (V c main_v69) (V c main_v71)) := by
  obtain ⟨⟨-, h7⟩, h0, h1, h2, h3, h4, h5⟩ := idx t
  show (cfg2.win 7).cut _ ((dat2 V c).after 7 t) = _
  rw [after2_7]
  exact blockV (V c main_v42) (V c main_v3) (V c main_v61) (V c main_v67) (V c main_v69) (V c main_v71) (places win2_0 t h0)
    (places win2_1 t h1) (places win2_2 t h2) (places win2_3 t h3) (places win2_4 t h4) (places win2_5 t h5) (places win2_7 t h7)

end NodeBRegion2

open NodeBRegion2 in
theorem region2_outH (V : (c : Dev nD) → (b : Ref sig .tc) → Buf (Elt Ideal) ((c : Thread nD τ).loc b)) (c : Dev nD) :
    (dat2 (F := Ideal) V c).arrAt 6 cfg2.N = nodeBH (N := 100000) (V c main_v42) (V c main_v61) (V c main_v67) :=
  (dat2 (F := Ideal) V c).arrAt_eq_of_cover 6 _ (fun t _ => flushH V c t) fun (i : S100000x32.Idx) =>
    ⟨rowPt N_2 (i 0), flush2_6 _, mem_rowBlock (n := 25000) (View.set_slice_whole _ _) i (by decide) (idx _).1.1⟩

open NodeBRegion2 in
theorem region2_outV (V : (c : Dev nD) → (b : Ref sig .tc) → Buf (Elt Ideal) ((c : Thread nD τ).loc b)) (c : Dev nD) :
    (dat2 (F := Ideal) V c).arrAt 7 cfg2.N
      = nodeBV (N := 100000) (V c main_v42) (V c main_v3) (V c main_v61) (V c main_v67) (V c main_v69) (V c main_v71) :=
  (dat2 (F := Ideal) V c).arrAt_eq_of_cover 7 _ (fun t _ => flushV V c t) fun (i : S100000x2.Idx) =>
    ⟨rowPt N_2 (i 0), flush2_7 _, mem_rowBlock (n := 25000) (View.set_slice_whole _ _) i (by decide) (idx _).1.2⟩

end Cert.GNN

end
-- ==== Proof.KSteps0.lean ====
import proofs.«424204_j12678743458345_1_alg».proof.Proof.KInv
import proofs.«424204_j12678743458345_1_alg».proof.Proof.KHost0
import proofs.«424204_j12678743458345_1_alg».proof.Proof.MsgRegion0
import proofs.«424204_j12678743458345_1_alg».proof.Proof.NodeARegion1
import proofs.«424204_j12678743458345_1_alg».proof.Proof.NodeBRegion2

set_option maxRecDepth 16384

noncomputable section

namespace Cert.GNN.KSteps0

open Idealize.ShloMosaic Idealize.ShloMosaic.TcCoe Idealize.ShloMosaic.StableHlo Idealize.SL.Sem
open Cert.KernelIdeal Cert.KernelIdeal.Gen Cert.GNN Cert.GNN.KSide

variable (m : (ℓ : Loc nD τ sig) → Buf (Elt Ideal) ℓ) (ρ : Dev nD → PrngReg) (c : Dev nD)

/-- What neither the stretch before the node kernel nor that kernel writes is, at its exit, as at the message kernel's exit. -/
theorem k_n (r : Ref sig .tc) (u : r ∉ KHost0.wroteMid ∧ ∀ w, Pipeline.arrRef spec1 w ≠ r) :
    W4 m ρ c (Proc.devRef .tc r) = W2 m ρ c (Proc.devRef .tc r) :=
  (W4_of_ne m ρ c r u.2).trans (KHost0.mid_keep (W2 m ρ c) r u.1)
theorem k_out (r : Ref sig .tc) (u : r ∉ KHost0.wrotePost ∧ ∀ w, Pipeline.arrRef spec2 w ≠ r) :
    W8 m ρ c (Proc.devRef .tc r) = W4 m ρ c (Proc.devRef .tc r) :=
  (W8_of_ne m ρ c r u.2).trans (KHost0.post_keep (W4 m ρ c) r u.1)

theorem ae : ArgsAt m c (W1 m ρ c) := fun r hr =>
  KHost0.pre_keep (W0 m ρ c) r ((by decide : ∀ r ∈ argRefs, r ∉ KHost0.wrotePre) r hr)
theorem e_v : W1 m ρ c (Proc.devRef .tc main_v3) = (S0 m c).v := by
  dsimp only [S0, K.init]; exact KHost0.pre_v (W0 m ρ c)
theorem e_g : W1 m ρ c (Proc.devRef .tc main_v8) = (S0 m c).g := KHost0.pre_g (W0 m ρ c)
theorem e_mask : V1 m ρ c main_v9 = K.maskCol (m ((c.tc : Thread nD τ).loc main_arg4)) := KHost0.pre_mask (W0 m ρ c)
theorem e_x : V1 m ρ c main_v10 = xOf (S0 m c) := by
  dsimp only [xOf, S0, K.init]; exact KHost0.pre_x (W0 m ρ c)
theorem e_xs : V1 m ρ c main_v17 = K.gath (xOf (S0 m c)) (m ((c.tc : Thread nD τ).loc main_arg1)) := by
  dsimp only [xOf, S0, K.init]; exact KHost0.pre_xs (W0 m ρ c)
theorem e_xr : V1 m ρ c main_v24 = K.gath (xOf (S0 m c)) (m ((c.tc : Thread nD τ).loc main_arg2)) := by
  dsimp only [xOf, S0, K.init]; exact KHost0.pre_xr (W0 m ρ c)
theorem e_wa : V1 m ρ c main_v27 = extractStridedSlice S34x32 ![0, 0] (P0 m c).wm Facts₀.slices_S70x32_S34x32_0_0 := KHost0.pre_wa (W0 m ρ c)
theorem e_wb : V1 m ρ c main_v28 = extractStridedSlice S34x32 ![34, 0] (P0 m c).wm Facts₀.slices_S70x32_S34x32_34_0 := KHost0.pre_wb (W0 m ρ c)
theorem e_wc : V1 m ρ c main_v29 = extractStridedSlice S2x32 ![68, 0] (P0 m c).wm Facts₀.slices_S70x32_S2x32_68_0 := KHost0.pre_wc (W0 m ρ c)
theorem e_bm : V1 m ρ c main_v31 = (P0 m c).bm := KHost0.pre_bm (W0 m ρ c)
theorem e_a3 : V1 m ρ c main_arg3 = (m ((c.tc : Thread nD τ).loc main_arg3)) := ae m ρ c main_arg3 (by decide)

theorem m_msg : W2 m ρ c (Proc.devRef .tc main_v32) = msgOf m c (P0 m c) (S0 m c) :=
  (W2_arr m ρ c 8).trans ((region0_out (V1 m ρ) c).trans (by
    rw [e_xs m ρ c, e_xr m ρ c, e_a3 m ρ c, e_mask m ρ c, e_wa m ρ c, e_wb m ρ c, e_wc m ρ c, e_bm m ρ c] <;> rfl))
theorem am : ArgsAt m c (W2 m ρ c) := fun r hr => by
  by_cases e : r = main_arg3
  · subst e
    exact ((W2_arr m ρ c 2).trans (((dat0 (V1 m ρ) c).arrAt_in 2 rfl _).trans (A_eq0 (V1 m ρ) c 2))).trans (ae m ρ c _ hr)
  · exact (W2_of_ne m ρ c r ((by decide : ∀ r ∈ argRefs, r ≠ main_arg3 → ∀ w, Pipeline.arrRef spec0 w ≠ r) r hr e)).trans (ae m ρ c r hr)
theorem pwm : PW K.layerW0 (W2 m ρ c) = P0 m c := PW_eq m c _ (am m ρ c)

theorem ne_x : V3 m ρ c main_v10 = xOf (S0 m c) :=
  (KHost0.mid_keep (W2 m ρ c) main_v10 (by decide)).trans ((W2_of_ne m ρ c main_v10 (by decide)).trans (e_x m ρ c))
theorem ne_agg : V3 m ρ c main_v35 = K.aggOf (m ((c.tc : Thread nD τ).loc main_arg2)) (msgOf m c (P0 m c) (S0 m c)) :=
  (KHost0.mid_agg (W2 m ρ c)).trans (by rw [am m ρ c main_arg2 (by decide), m_msg m ρ c] <;> rfl)
theorem ne_wx : V3 m ρ c main_v38 = extractStridedSlice S34x32 ![0, 0] (P0 m c).wn Facts₀.slices_S66x32_S34x32_0_0 :=
  (KHost0.mid_wx (W2 m ρ c)).trans (by rw [pwm m ρ c] <;> rfl)
theorem ne_wg : V3 m ρ c main_v39 = extractStridedSlice S32x32 ![34, 0] (P0 m c).wn Facts₀.slices_S66x32_S32x32_34_0 :=
  (KHost0.mid_wg (W2 m ρ c)).trans (by rw [pwm m ρ c] <;> rfl)
theorem ne_bn : V3 m ρ c main_v41 = (P0 m c).bn := (KHost0.mid_bn (W2 m ρ c)).trans (by rw [pwm m ρ c] <;> rfl)

theorem n_h1 : W4 m ρ c (Proc.devRef .tc main_v42) = h1Of m c (P0 m c) (S0 m c) :=
  (W4_arr m ρ c 5).trans ((region1_out (V3 m ρ) c).trans (by
    rw [ne_x m ρ c, ne_agg m ρ c, ne_wx m ρ c, ne_wg m ρ c, ne_bn m ρ c] <;> rfl))
theorem an : ArgsAt m c (W4 m ρ c) := fun r hr =>
  (k_n m ρ c r ((by decide : ∀ r ∈ argRefs, r ∉ KHost0.wroteMid ∧ ∀ w, Pipeline.arrRef spec1 w ≠ r) r hr)).trans (am m ρ c r hr)
theorem pwn : PW K.layerW0 (W4 m ρ c) = P0 m c := PW_eq m c _ (an m ρ c)
theorem n_g : W4 m ρ c (Proc.devRef .tc main_v8) = (S0 m c).g :=
  (k_n m ρ c main_v8 (by decide)).trans ((W2_of_ne m ρ c main_v8 (by decide)).trans (e_g m ρ c))

theorem be_h1 : V7 m ρ c main_v42 = h1Of m c (P0 m c) (S0 m c) := (KHost0.post_keep (W4 m ρ c) main_v42 (by decide)).trans (n_h1 m ρ c)
theorem be_v : V7 m ρ c main_v3 = (S0 m c).v :=
  (KHost0.post_keep (W4 m ρ c) main_v3 (by decide)).trans ((k_n m ρ c main_v3 (by decide)).trans ((W2_of_ne m ρ c main_v3 (by decide)).trans (e_v m ρ c)))
theorem be_wmix : V7 m ρ c main_v61 = extractStridedSlice S32x32 ![0, 0] (P0 m c).wgn Facts₀.slices_S64x32_S32x32_0_0 :=
  (KHost0.post_wmix (W4 m ρ c)).trans (by rw [pwn m ρ c] <;> rfl)
theorem be_bias : V7 m ρ c main_v67 = K.biasRow (gOf m c (P0 m c) (S0 m c)) (P0 m c).wgn (P0 m c).bgn :=
  (KHost0.post_bias (W4 m ρ c)).trans (by rw [n_g m ρ c, n_h1 m ρ c, pwn m ρ c] <;> rfl)
theorem be_wdv : V7 m ρ c main_v69 = (P0 m c).wdv := (KHost0.post_wdv (W4 m ρ c)).trans (by rw [pwn m ρ c] <;> rfl)
theorem be_bdv : V7 m ρ c main_v71 = (P0 m c).bdv := (KHost0.post_bdv (W4 m ρ c)).trans (by rw [pwn m ρ c] <;> rfl)

theorem _root_.Cert.GNN.KSide.layer0 : At8 m ρ c (stepAt m c (P0 m c) (S0 m c)) where
  v := (W8_arr m ρ c 7).trans ((region2_outV (V7 m ρ) c).trans (by
    rw [be_h1 m ρ c, be_v m ρ c, be_wmix m ρ c, be_bias m ρ c, be_wdv m ρ c, be_bdv m ρ c] <;> rfl))
  h := (W8_arr m ρ c 6).trans ((region2_outH (V7 m ρ) c).trans (by
    rw [be_h1 m ρ c, be_wmix m ρ c, be_bias m ρ c] <;> rfl))
  g := (W8_of_ne m ρ c main_v58 (by decide)).trans ((KHost0.post_g (W4 m ρ c)).trans (by rw [n_g m ρ c, n_h1 m ρ c, pwn m ρ c] <;> rfl))
  mask := (k_out m ρ c main_v9 (by decide)).trans ((k_n m ρ c main_v9 (by decide)).trans (((W2_arr m ρ c 3).trans (((dat0 (V1 m ρ) c).arrAt_in 3 rfl _).trans (A_eq0 (V1 m ρ) c 3))).trans (e_mask m ρ c)))
  args := fun r hr => (k_out m ρ c r ((by decide : ∀ r ∈ argRefs, r ∉ KHost0.wrotePost ∧ ∀ w, Pipeline.arrRef spec2 w ≠ r) r hr)).trans (an m ρ c r hr)

end Cert.GNN.KSteps0

end
-- ==== Proof.KHost1.lean ====
import proofs.«424204_j12678743458345_1_alg».proof.Proof.KArgs

noncomputable section

namespace Cert.GNN.KHost1

open Idealize.ShloMosaic Idealize.ShloMosaic.StableHlo Cert.KernelIdeal Cert.KernelIdeal.Gen Cert.GNN.K Cert.GNN.KSide

variable (W : Valuation τ sig (Elt Ideal))

theorem pre_x : after (hostOps3 (F := Ideal)) W (Proc.devRef .tc main_v73) = catX (W (Proc.devRef .tc main_v72_1)) (W (Proc.devRef .tc main_v72_0)) := by
  after_results_simp <;> rfl
theorem pre_xs : after (hostOps3 (F := Ideal)) W (Proc.devRef .tc main_v80) = gath (catX (W (Proc.devRef .tc main_v72_1)) (W (Proc.devRef .tc main_v72_0))) (W (Proc.devRef .tc main_arg1)) := by
  after_results_simp <;> rfl
theorem pre_xr : after (hostOps3 (F := Ideal)) W (Proc.devRef .tc main_v87) = gath (catX (W (Proc.devRef .tc main_v72_1)) (W (Proc.devRef .tc main_v72_0))) (W (Proc.devRef .tc main_arg2)) := by
  after_results_simp <;> rfl
theorem pre_wa : after (hostOps3 (F := Ideal)) W (Proc.devRef .tc main_v90) = extractStridedSlice S34x32 ![0, 0] (PW layerW1 W).wm Facts₀.slices_S70x32_S34x32_0_0 := by
  after_results_simp <;> rfl
theorem pre_wb : after (hostOps3 (F := Ideal)) W (Proc.devRef .tc main_v91) = extractStridedSlice S34x32 ![34, 0] (PW layerW1 W).wm Facts₀.slices_S70x32_S34x32_34_0 := by
  after_results_simp <;> rfl
theorem pre_wc : after (hostOps3 (F := Ideal)) W (Proc.devRef .tc main_v92) = extractStridedSlice S2x32 ![68, 0] (PW layerW1 W).wm Facts₀.slices_S70x32_S2x32_68_0 := by
  after_results_simp <;> rfl
theorem pre_bm : after (hostOps3 (F := Ideal)) W (Proc.devRef .tc main_v94) = (PW layerW1 W).bm := by
  after_results_simp <;> rfl

theorem mid_agg : after (hostOps4 (F := Ideal)) W (Proc.devRef .tc main_v98) = aggOf (W (Proc.devRef .tc main_arg2)) (W (Proc.devRef .tc main_v95)) := by
  after_results_simp <;> rfl
theorem mid_wx : after (hostOps4 (F := Ideal)) W (Proc.devRef .tc main_v101) = extractStridedSlice S34x32 ![0, 0] (PW layerW1 W).wn Facts₀.slices_S66x32_S34x32_0_0 := by
  after_results_simp <;> rfl
theorem mid_wg : after (hostOps4 (F := Ideal)) W (Proc.devRef .tc main_v102) = extractStridedSlice S32x32 ![34, 0] (PW layerW1 W).wn Facts₀.slices_S66x32_S32x32_34_0 := by
  after_results_simp <;> rfl
theorem mid_bn : after (hostOps4 (F := Ideal)) W (Proc.devRef .tc main_v104) = (PW layerW1 W).bn := by
  after_results_simp <;> rfl

/-- The three stretches before the mixing kernel, read straight through. -/
abbrev post : Valuation τ sig (Elt Ideal) := after (hostOps5_2 (F := Ideal)) (after (hostOps5_1 (F := Ideal)) (after (hostOps5 (F := Ideal)) W))

theorem post_g : post W (Proc.devRef .tc main_v121) = gNext (W (Proc.devRef .tc main_v58)) (W (Proc.devRef .tc main_v105)) (PW layerW1 W).wg (PW layerW1 W).bg := by
  after_results_simp <;> rfl
theorem post_wmix : post W (Proc.devRef .tc main_v124) = extractStridedSlice S32x32 ![0, 0] (PW layerW1 W).wgn Facts₀.slices_S64x32_S32x32_0_0 := by
  after_results_simp <;> rfl
theorem post_bias : post W (Proc.devRef .tc main_v130) = biasRow (gNext (W (Proc.devRef .tc main_v58)) (W (Proc.devRef .tc main_v105)) (PW layerW1 W).wg (PW layerW1 W).bg) (PW layerW1 W).wgn (PW layerW1 W).bgn := by
  after_results_simp <;> rfl
theorem post_wdv : post W (Proc.devRef .tc main_v132) = (PW layerW1 W).wdv := by
  after_results_simp <;> rfl
theorem post_bdv : post W (Proc.devRef .tc main_v134) = (PW layerW1 W).bdv := by
  after_results_simp <;> rfl

abbrev wrotePre : List (Ref sig .tc) :=
  [main_v73, main_c_9, main_v74, main_v75, main_c_10, main_v76, main_v77, main_v78, main_v79, main_v80, main_c_11, main_v81, main_v82, main_c_12, main_v83, main_v84, main_v85, main_v86, main_v87, main_v88, main_v89, main_v90, main_v91, main_v92, main_v93, main_v94]
abbrev wroteMid : List (Ref sig .tc) :=
  [main_cst_13, main_v96, main_v97, main_v98, main_v99, main_v100, main_v101, main_v102, main_v103, main_v104]
abbrev wrotePost : List (Ref sig .tc) :=
  [main_cst_14, main_v106, main_v107, main_cst_15, main_v108, main_v109, main_v110, main_v111, main_v112, main_v113, main_v114, main_v115, main_v116, main_v117, main_v118, main_v119, main_v120, main_call1_cst, main_call1_v0, main_v121, main_v122, main_v123, main_v124, main_v125, main_v126, main_v127, main_v128, main_v129, main_v130, main_v131, main_v132, main_v133, main_v134]

/-- Every operation of a stretch writes only references of the stretch's list. -/
theorem wrote_sub : WritesIn hostOps3 wrotePre
    ∧ WritesIn hostOps4 wroteMid
    ∧ WritesIn hostOps5 wrotePost
    ∧ WritesIn hostOps5_1 wrotePost
    ∧ WritesIn hostOps5_2 wrotePost := by
  refine ⟨?_, ?_, ?_, ?_, ?_⟩
  all_goals
    simp only [List.Forall]
    repeat' apply And.intro
    all_goals
      simp only [StableHlo.nullary_writes, StableHlo.unary_writes, StableHlo.binary_writes, StableHlo.ternary_writes, StableHlo.reshape_writes, Finset.singleton_subset_iff, List.mem_toFinset]
      exact List.mem_map_of_mem (by decide)

theorem pre_keep (r : Ref sig .tc) (h : r ∉ wrotePre) : after (hostOps3 (F := Ideal)) W (Proc.devRef .tc r) = W (Proc.devRef .tc r) :=
  after_of_writes_sub _ W wrote_sub.1 h
theorem mid_keep (r : Ref sig .tc) (h : r ∉ wroteMid) : after (hostOps4 (F := Ideal)) W (Proc.devRef .tc r) = W (Proc.devRef .tc r) :=
  after_of_writes_sub _ W wrote_sub.2.1 h
theorem post_keep (r : Ref sig .tc) (h : r ∉ wrotePost) : post W (Proc.devRef .tc r) = W (Proc.devRef .tc r) :=
  (after_of_writes_sub _ _ wrote_sub.2.2.2.2 h).trans ((after_of_writes_sub _ _ wrote_sub.2.2.2.1 h).trans (after_of_writes_sub _ W wrote_sub.2.2.1 h))

end Cert.GNN.KHost1

end
-- ==== Proof.MsgRegion3.lean ====
import proofs.«424204_j12678743458345_1_alg».proof.Proof.MsgRegion0

noncomputable section

namespace Cert.GNN

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem region3_out (c : Dev nD) :
    (dat3 (F := Ideal) V c).arrAt 8 cfg3.N
      = msgG (E := 3200000) (V c main_v80) (V c main_v87) (V c main_arg3) (V c main_v9) (V c main_v90) (V c main_v91) (V c main_v92) (V c main_v94) := by
  refine (dat3 V c).arrAt_eq_of_cover 8 _ (fun t _ => ?_) fun (i : S3200000x32.Idx) => ?_
  · show (cfg3.win 8).cut (grid3.coords t) ((dat3 V c).after 8 t) = _
    rw [after3_8, show out3_8 (F := Ideal) = out0_8 from rfl, out_eq]
    exact funext fun j => msg_point (rowBlk _ (win3_0.rect_emb_val t) (idx_row t)) (rowBlk _ (win3_1.rect_emb_val t) (idx_row t))
      (rowBlk _ (win3_2.rect_emb_val t) (idx_row t)) (rowBlk _ (win3_3.rect_emb_val t) (idx_row t))
      (wholeBlk _ (win3_4.rect_emb_val t) (idx_zero2 t)) (wholeBlk _ (win3_5.rect_emb_val t) (idx_zero2 t))
      (wholeBlk _ (win3_6.rect_emb_val t) (idx_zero2 t)) (wholeBlk _ (win3_7.rect_emb_val t) (idx_zero1 t))
      (win3_8.rect_emb_val t) (idx_row t) j
  · obtain ⟨t, ht⟩ := blk_pt i
    refine ⟨t, flush3_8 t, ?_⟩
    show i ∈ ((View.whole main_v95).slice (win3_8.rect t)).set
    rw [View.set_slice_whole, Rect.mem_set_unit]
    exact mem_rowBlk i ht (idx_row t)

end Cert.GNN

end
-- ==== Proof.NodeARegion4.lean ====
import proofs.«424204_j12678743458345_1_alg».proof.Proof.NodeAPay1

set_option maxRecDepth 16384

noncomputable section

namespace Cert.GNN

open Idealize.ShloMosaic Idealize.ShloMosaic.TcCoe Cert.KernelIdeal Cert.KernelIdeal.Gen

variable (V : (c : Dev nD) → (b : Ref sig .tc) → Buf (Elt Ideal) ((c : Thread nD τ).loc b))

/-- The block index at point t: (t, 0) for the two row-blocked inputs and the output, 0 for the weights and the bias. -/
theorem block_index4 : ∀ t : Fin cfg4.N,
    (∀ a, win4_0.index t a = ![t.val, 0] a) ∧ (∀ a, win4_1.index t a = ![t.val, 0] a) ∧ (∀ a, win4_2.index t a = 0)
    ∧ (∀ a, win4_3.index t a = 0) ∧ (∀ a, win4_4.index t a = 0) ∧ (∀ a, win4_5.index t a = ![t.val, 0] a) :=
  (by decide +kernel : ∀ t : Fin grid4.N, _)

/-- Block t of the output is block t of the whole-array node update, and the four blocks cover the rows. -/
theorem region4_out (c : Dev nD) :
    (dat4 (F := Ideal) V c).arrAt 5 cfg4.N
      = nodeAG (N := 100000) (V c main_v73) (V c main_v98) (V c main_v101) (V c main_v102) (V c main_v104) := by
  refine (dat4 (F := Ideal) V c).arrAt_eq_of_cover 5 _ (fun t _ => ?_) fun i => ?_
  · obtain ⟨i0, i1, i2, i3, i4, i5⟩ := block_index4 t
    show (cfg4.win 5).cut (grid4.coords t) ((dat4 V c).after 5 t) = _
    rw [after4_5]
    exact funext (nodeA_block (V c main_v73) (V c main_v98) (V c main_v101) (V c main_v102) (V c main_v104)
      (win4_0.rect t).emb (win4_1.rect t).emb (win4_2.rect t).emb (win4_3.rect t).emb (win4_4.rect t).emb
      (win4_5.rect t).emb t.val
      (fun x a => i0 a ▸ win4_0.rect_emb_val t x a) (fun x a => i1 a ▸ win4_1.rect_emb_val t x a)
      (fun x a => i2 a ▸ win4_2.rect_emb_val t x a) (fun x a => i3 a ▸ win4_3.rect_emb_val t x a)
      (fun x a => i4 a ▸ win4_4.rect_emb_val t x a) (fun x a => i5 a ▸ win4_5.rect_emb_val t x a))
  · have hi : (i 0).val < 100000 := (i 0).isLt
    obtain ⟨t, ht⟩ : ∃ t : Fin cfg4.N, t.val = (i 0).val / 25000 :=
      ⟨⟨(i 0).val / 25000, by rw [show cfg4.N = 4 from N_4]; omega⟩, rfl⟩
    refine ⟨t, flush4_5 t, ?_⟩
    show i ∈ ((View.whole main_v105).slice (win4_5.rect t)).set
    rw [View.set_slice_whole, Rect.mem_set_unit]
    exact nodeA_row_mem i _ fun a => ht ▸ (block_index4 t).2.2.2.2.2 a

end Cert.GNN

end
-- ==== Proof.NodeBRegion5.lean ====
import proofs.«424204_j12678743458345_1_alg».proof.Proof.NodeBRegion2

set_option maxRecDepth 16384

noncomputable section

namespace Cert.GNN

open Idealize.ShloMosaic Idealize.ShloMosaic.TcCoe Idealize.ShloMosaic.ValueIdx Idealize.SL.Sem
open Idealize.ShloMosaic.Pipeline (Dat)
open Cert.KernelIdeal Cert.KernelIdeal.Gen

open NodeBRegion2 (blockH blockV places rowPt mem_rowBlock)

namespace NodeBRegion5

theorem idx : ∀ t : Fin cfg5.N, (win5_6.index t = ![t.val, 0] ∧ win5_7.index t = ![t.val, 0]) ∧ win5_0.index t = ![t.val, 0]
    ∧ win5_1.index t = ![t.val, 0] ∧ (win5_2.index t = fun _ => 0) ∧ (win5_3.index t = fun _ => 0) ∧ (win5_4.index t = fun _ => 0)
    ∧ (win5_5.index t = fun _ => 0) :=
  (by decide +kernel : ∀ t : Fin grid5.N, _)

variable (V : (c : Dev nD) → (b : Ref sig .tc) → Buf (Elt Ideal) ((c : Thread nD τ).loc b))

theorem flushH (c : Dev nD) (t : Fin cfg5.N) : (dat5 (F := Ideal) V c).flushed 6 t
    = ((cfg5.win 6).blk t).view.read (Elt Ideal) (nodeBH (N := 100000) (V c main_v105) (V c main_v124) (V c main_v130)) := by
  obtain ⟨⟨h6, -⟩, h0, -, h2, h3, -, -⟩ := idx t
  show (cfg5.win 6).cut _ ((dat5 V c).after 6 t) = _
  rw [after5_6]
  exact blockH (V c main_v105) (V c main_v124) (V c main_v130) (places win5_0 t h0) (places win5_2 t h2) (places win5_3 t h3)
    (places win5_6 t h6)

theorem flushV (c : Dev nD) (t : Fin cfg5.N) : (dat5 (F := Ideal) V c).flushed 7 t
    = ((cfg5.win 7).blk t).view.read (Elt Ideal)
        (nodeBV (N := 100000) (V c main_v105) (V c main_v72_1) (V c main_v124) (V c main_v130) (V c main_v132) (V c main_v134)) := by
  obtain ⟨⟨-, h7⟩, h0, h1, h2, h3, h4, h5⟩ := idx t
  show (cfg5.win 7).cut _ ((dat5 V c).after 7 t) = _
  rw [after5_7]
  exact blockV (V c main_v105) (V c main_v72_1) (V c main_v124) (V c main_v130) (V c main_v132) (V c main_v134) (places win5_0 t h0)
    (places win5_1 t h1) (places win5_2 t h2) (places win5_3 t h3) (places win5_4 t h4) (places win5_5 t h5) (places win5_7 t h7)

end NodeBRegion5

open NodeBRegion5 in
theorem region5_outH (V : (c : Dev nD) → (b : Ref sig .tc) → Buf (Elt Ideal) ((c : Thread nD τ).loc b)) (c : Dev nD) :
    (dat5 (F := Ideal) V c).arrAt 6 cfg5.N = nodeBH (N := 100000) (V c main_v105) (V c main_v124) (V c main_v130) :=
  (dat5 (F := Ideal) V c).arrAt_eq_of_cover 6 _ (fun t _ => flushH V c t) fun (i : S100000x32.Idx) =>
    ⟨rowPt N_5 (i 0), flush5_6 _, mem_rowBlock (n := 25000) (View.set_slice_whole _ _) i (by decide) (idx _).1.1⟩

open NodeBRegion5 in
theorem region5_outV (V : (c : Dev nD) → (b : Ref sig .tc) → Buf (Elt Ideal) ((c : Thread nD τ).loc b)) (c : Dev nD) :
    (dat5 (F := Ideal) V c).arrAt 7 cfg5.N
      = nodeBV (N := 100000) (V c main_v105) (V c main_v72_1) (V c main_v124) (V c main_v130) (V c main_v132) (V c main_v134) :=
  (dat5 (F := Ideal) V c).arrAt_eq_of_cover 7 _ (fun t _ => flushV V c t) fun (i : S100000x2.Idx) =>
    ⟨rowPt N_5 (i 0), flush5_7 _, mem_rowBlock (n := 25000) (View.set_slice_whole _ _) i (by decide) (idx _).1.2⟩

end Cert.GNN

end
-- ==== Proof.KSteps1.lean ====
import proofs.«424204_j12678743458345_1_alg».proof.Proof.KInv
import proofs.«424204_j12678743458345_1_alg».proof.Proof.KHost1
import proofs.«424204_j12678743458345_1_alg».proof.Proof.MsgRegion3
import proofs.«424204_j12678743458345_1_alg».proof.Proof.NodeARegion4
import proofs.«424204_j12678743458345_1_alg».proof.Proof.NodeBRegion5

set_option maxRecDepth 16384

noncomputable section

namespace Cert.GNN.KSteps1

open Idealize.ShloMosaic Idealize.ShloMosaic.TcCoe Idealize.ShloMosaic.StableHlo Idealize.SL.Sem
open Cert.KernelIdeal Cert.KernelIdeal.Gen Cert.GNN Cert.GNN.KSide

variable (m : (ℓ : Loc nD τ sig) → Buf (Elt Ideal) ℓ) (ρ : Dev nD → PrngReg) (c : Dev nD)

/-- What neither the stretch before the node kernel nor that kernel writes is, at its exit, as at the message kernel's exit. -/
theorem k_n (r : Ref sig .tc) (u : r ∉ KHost1.wroteMid ∧ ∀ w, Pipeline.arrRef spec4 w ≠ r) :
    W12 m ρ c (Proc.devRef .tc r) = W10 m ρ c (Proc.devRef .tc r) :=
  (W12_of_ne m ρ c r u.2).trans (KHost1.mid_keep (W10 m ρ c) r u.1)
theorem k_out (r : Ref sig .tc) (u : r ∉ KHost1.wrotePost ∧ ∀ w, Pipeline.arrRef spec5 w ≠ r) :
    W16 m ρ c (Proc.devRef .tc r) = W12 m ρ c (Proc.devRef .tc r) :=
  (W16_of_ne m ρ c r u.2).trans (KHost1.post_keep (W12 m ρ c) r u.1)

section Layer
variable (s : K.State) (h : At8 m ρ c s)
include h

theorem ae : ArgsAt m c (W9 m ρ c) := fun r hr =>
  (KHost1.pre_keep (W8 m ρ c) r ((by decide : ∀ r ∈ argRefs, r ∉ KHost1.wrotePre) r hr)).trans (h.args r hr)
theorem pwi : PW K.layerW1 (W8 m ρ c) = P1 m c := PW_eq m c _ h.args
theorem e_v : W9 m ρ c (Proc.devRef .tc main_v72_1) = s.v := (KHost1.pre_keep (W8 m ρ c) main_v72_1 (by decide)).trans h.v
theorem e_g : W9 m ρ c (Proc.devRef .tc main_v58) = s.g := (KHost1.pre_keep (W8 m ρ c) main_v58 (by decide)).trans h.g
theorem e_mask : V9 m ρ c main_v9 = K.maskCol (m ((c.tc : Thread nD τ).loc main_arg4)) := (KHost1.pre_keep (W8 m ρ c) main_v9 (by decide)).trans h.mask
theorem e_x : V9 m ρ c main_v73 = xOf s := (KHost1.pre_x (W8 m ρ c)).trans (by rw [h.v, h.h] <;> rfl)
theorem e_xs : V9 m ρ c main_v80 = K.gath (xOf s) (m ((c.tc : Thread nD τ).loc main_arg1)) :=
  (KHost1.pre_xs (W8 m ρ c)).trans (by rw [h.v, h.h, h.args main_arg1 (by decide)] <;> rfl)
theorem e_xr : V9 m ρ c main_v87 = K.gath (xOf s) (m ((c.tc : Thread nD τ).loc main_arg2)) :=
  (KHost1.pre_xr (W8 m ρ c)).trans (by rw [h.v, h.h, h.args main_arg2 (by decide)] <;> rfl)
theorem e_wa : V9 m ρ c main_v90 = extractStridedSlice S34x32 ![0, 0] (P1 m c).wm Facts₀.slices_S70x32_S34x32_0_0 :=
  (KHost1.pre_wa (W8 m ρ c)).trans (by rw [pwi m ρ c s h] <;> rfl)
theorem e_wb : V9 m ρ c main_v91 = extractStridedSlice S34x32 ![34, 0] (P1 m c).wm Facts₀.slices_S70x32_S34x32_34_0 :=
  (KHost1.pre_wb (W8 m ρ c)).trans (by rw [pwi m ρ c s h] <;> rfl)
theorem e_wc : V9 m ρ c main_v92 = extractStridedSlice S2x32 ![68, 0] (P1 m c).wm Facts₀.slices_S70x32_S2x32_68_0 :=
  (KHost1.pre_wc (W8 m ρ c)).trans (by rw [pwi m ρ c s h] <;> rfl)
theorem e_bm : V9 m ρ c main_v94 = (P1 m c).bm := (KHost1.pre_bm (W8 m ρ c)).trans (by rw [pwi m ρ c s h] <;> rfl)
theorem e_a3 : V9 m ρ c main_arg3 = (m ((c.tc : Thread nD τ).loc main_arg3)) := ae m ρ c s h main_arg3 (by decide)

theorem m_msg : W10 m ρ c (Proc.devRef .tc main_v95) = msgOf m c (P1 m c) s :=
  (W10_arr m ρ c 8).trans ((region3_out (V9 m ρ) c).trans (by
    rw [e_xs m ρ c s h, e_xr m ρ c s h, e_a3 m ρ c s h, e_mask m ρ c s h, e_wa m ρ c s h, e_wb m ρ c s h, e_wc m ρ c s h, e_bm m ρ c s h] <;> rfl))
theorem am : ArgsAt m c (W10 m ρ c) := fun r hr => by
  by_cases e : r = main_arg3
  · subst e
    exact ((W10_arr m ρ c 2).trans (((dat3 (V9 m ρ) c).arrAt_in 2 rfl _).trans (A_eq3 (V9 m ρ) c 2))).trans (ae m ρ c s h _ hr)
  · exact (W10_of_ne m ρ c r ((by decide : ∀ r ∈ argRefs, r ≠ main_arg3 → ∀ w, Pipeline.arrRef spec3 w ≠ r) r hr e)).trans (ae m ρ c s h r hr)
theorem pwm : PW K.layerW1 (W10 m ρ c) = P1 m c := PW_eq m c _ (am m ρ c s h)

theorem ne_x : V11 m ρ c main_v73 = xOf s :=
  (KHost1.mid_keep (W10 m ρ c) main_v73 (by decide)).trans ((W10_of_ne m ρ c main_v73 (by decide)).trans (e_x m ρ c s h))
theorem ne_agg : V11 m ρ c main_v98 = K.aggOf (m ((c.tc : Thread nD τ).loc main_arg2)) (msgOf m c (P1 m c) s) :=
  (KHost1.mid_agg (W10 m ρ c)).trans (by rw [am m ρ c s h main_arg2 (by decide), m_msg m ρ c s h] <;> rfl)
theorem ne_wx : V11 m ρ c main_v101 = extractStridedSlice S34x32 ![0, 0] (P1 m c).wn Facts₀.slices_S66x32_S34x32_0_0 :=
  (KHost1.mid_wx (W10 m ρ c)).trans (by rw [pwm m ρ c s h] <;> rfl)
theorem ne_wg : V11 m ρ c main_v102 = extractStridedSlice S32x32 ![34, 0] (P1 m c).wn Facts₀.slices_S66x32_S32x32_34_0 :=
  (KHost1.mid_wg (W10 m ρ c)).trans (by rw [pwm m ρ c s h] <;> rfl)
theorem ne_bn : V11 m ρ c main_v104 = (P1 m c).bn := (KHost1.mid_bn (W10 m ρ c)).trans (by rw [pwm m ρ c s h] <;> rfl)

theorem n_h1 : W12 m ρ c (Proc.devRef .tc main_v105) = h1Of m c (P1 m c) s :=
  (W12_arr m ρ c 5).trans ((region4_out (V11 m ρ) c).trans (by
    rw [ne_x m ρ c s h, ne_agg m ρ c s h, ne_wx m ρ c s h, ne_wg m ρ c s h, ne_bn m ρ c s h] <;> rfl))
theorem an : ArgsAt m c (W12 m ρ c) := fun r hr =>
  (k_n m ρ c r ((by decide : ∀ r ∈ argRefs, r ∉ KHost1.wroteMid ∧ ∀ w, Pipeline.arrRef spec4 w ≠ r) r hr)).trans (am m ρ c s h r hr)
theorem pwn : PW K.layerW1 (W12 m ρ c) = P1 m c := PW_eq m c _ (an m ρ c s h)
theorem n_g : W12 m ρ c (Proc.devRef .tc main_v58) = s.g :=
  (k_n m ρ c main_v58 (by decide)).trans ((W10_of_ne m ρ c main_v58 (by decide)).trans (e_g m ρ c s h))

theorem be_h1 : V15 m ρ c main_v105 = h1Of m c (P1 m c) s := (KHost1.post_keep (W12 m ρ c) main_v105 (by decide)).trans (n_h1 m ρ c s h)
theorem be_v : V15 m ρ c main_v72_1 = s.v :=
  (KHost1.post_keep (W12 m ρ c) main_v72_1 (by decide)).trans ((k_n m ρ c main_v72_1 (by decide)).trans ((W10_of_ne m ρ c main_v72_1 (by decide)).trans (e_v m ρ c s h)))
theorem be_wmix : V15 m ρ c main_v124 = extractStridedSlice S32x32 ![0, 0] (P1 m c).wgn Facts₀.slices_S64x32_S32x32_0_0 :=
  (KHost1.post_wmix (W12 m ρ c)).trans (by rw [pwn m ρ c s h] <;> rfl)
theorem be_bias : V15 m ρ c main_v130 = K.biasRow (gOf m c (P1 m c) s) (P1 m c).wgn (P1 m c).bgn :=
  (KHost1.post_bias (W12 m ρ c)).trans (by rw [n_g m ρ c s h, n_h1 m ρ c s h, pwn m ρ c s h] <;> rfl)
theorem be_wdv : V15 m ρ c main_v132 = (P1 m c).wdv := (KHost1.post_wdv (W12 m ρ c)).trans (by rw [pwn m ρ c s h] <;> rfl)
theorem be_bdv : V15 m ρ c main_v134 = (P1 m c).bdv := (KHost1.post_bdv (W12 m ρ c)).trans (by rw [pwn m ρ c s h] <;> rfl)

theorem _root_.Cert.GNN.KSide.layer1 : At16 m ρ c (stepAt m c (P1 m c) s) where
  v := (W16_arr m ρ c 7).trans ((region5_outV (V15 m ρ) c).trans (by
    rw [be_h1 m ρ c s h, be_v m ρ c s h, be_wmix m ρ c s h, be_bias m ρ c s h, be_wdv m ρ c s h, be_bdv m ρ c s h] <;> rfl))
  h := (W16_arr m ρ c 6).trans ((region5_outH (V15 m ρ) c).trans (by
    rw [be_h1 m ρ c s h, be_wmix m ρ c s h, be_bias m ρ c s h] <;> rfl))
  g := (W16_of_ne m ρ c main_v121 (by decide)).trans ((KHost1.post_g (W12 m ρ c)).trans (by rw [n_g m ρ c s h, n_h1 m ρ c s h, pwn m ρ c s h] <;> rfl))
  mask := (k_out m ρ c main_v9 (by decide)).trans ((k_n m ρ c main_v9 (by decide)).trans (((W10_arr m ρ c 3).trans (((dat3 (V9 m ρ) c).arrAt_in 3 rfl _).trans (A_eq3 (V9 m ρ) c 3))).trans (e_mask m ρ c s h)))
  args := fun r hr => (k_out m ρ c r ((by decide : ∀ r ∈ argRefs, r ∉ KHost1.wrotePost ∧ ∀ w, Pipeline.arrRef spec5 w ≠ r) r hr)).trans (an m ρ c s h r hr)

end Layer

end Cert.GNN.KSteps1

end
-- ==== Proof.KHost2.lean ====
import proofs.«424204_j12678743458345_1_alg».proof.Proof.KArgs

noncomputable section

namespace Cert.GNN.KHost2

open Idealize.ShloMosaic Idealize.ShloMosaic.StableHlo Cert.KernelIdeal Cert.KernelIdeal.Gen Cert.GNN.K Cert.GNN.KSide

variable (W : Valuation τ sig (Elt Ideal))

theorem pre_x : after (hostOps6 (F := Ideal)) W (Proc.devRef .tc main_v136) = catX (W (Proc.devRef .tc main_v135_1)) (W (Proc.devRef .tc main_v135_0)) := by
  after_results_simp <;> rfl
theorem pre_xs : after (hostOps6 (F := Ideal)) W (Proc.devRef .tc main_v143) = gath (catX (W (Proc.devRef .tc main_v135_1)) (W (Proc.devRef .tc main_v135_0))) (W (Proc.devRef .tc main_arg1)) := by
  after_results_simp <;> rfl
theorem pre_xr : after (hostOps6 (F := Ideal)) W (Proc.devRef .tc main_v150) = gath (catX (W (Proc.devRef .tc main_v135_1)) (W (Proc.devRef .tc main_v135_0))) (W (Proc.devRef .tc main_arg2)) := by
  after_results_simp <;> rfl
theorem pre_wa : after (hostOps6 (F := Ideal)) W (Proc.devRef .tc main_v153) = extractStridedSlice S34x32 ![0, 0] (PW layerW2 W).wm Facts₀.slices_S70x32_S34x32_0_0 := by
  after_results_simp <;> rfl
theorem pre_wb : after (hostOps6 (F := Ideal)) W (Proc.devRef .tc main_v154) = extractStridedSlice S34x32 ![34, 0] (PW layerW2 W).wm Facts₀.slices_S70x32_S34x32_34_0 := by
  after_results_simp <;> rfl
theorem pre_wc : after (hostOps6 (F := Ideal)) W (Proc.devRef .tc main_v155) = extractStridedSlice S2x32 ![68, 0] (PW layerW2 W).wm Facts₀.slices_S70x32_S2x32_68_0 := by
  after_results_simp <;> rfl
theorem pre_bm : after (hostOps6 (F := Ideal)) W (Proc.devRef .tc main_v157) = (PW layerW2 W).bm := by
  after_results_simp <;> rfl

theorem mid_agg : after (hostOps7 (F := Ideal)) W (Proc.devRef .tc main_v161) = aggOf (W (Proc.devRef .tc main_arg2)) (W (Proc.devRef .tc main_v158)) := by
  after_results_simp <;> rfl
theorem mid_wx : after (hostOps7 (F := Ideal)) W (Proc.devRef .tc main_v164) = extractStridedSlice S34x32 ![0, 0] (PW layerW2 W).wn Facts₀.slices_S66x32_S34x32_0_0 := by
  after_results_simp <;> rfl
theorem mid_wg : after (hostOps7 (F := Ideal)) W (Proc.devRef .tc main_v165) = extractStridedSlice S32x32 ![34, 0] (PW layerW2 W).wn Facts₀.slices_S66x32_S32x32_34_0 := by
  after_results_simp <;> rfl
theorem mid_bn : after (hostOps7 (F := Ideal)) W (Proc.devRef .tc main_v167) = (PW layerW2 W).bn := by
  after_results_simp <;> rfl

/-- The three stretches before the mixing kernel, read straight through. -/
abbrev post : Valuation τ sig (Elt Ideal) := after (hostOps8_2 (F := Ideal)) (after (hostOps8_1 (F := Ideal)) (after (hostOps8 (F := Ideal)) W))

theorem post_g : post W (Proc.devRef .tc main_v184) = gNext (W (Proc.devRef .tc main_v121)) (W (Proc.devRef .tc main_v168)) (PW layerW2 W).wg (PW layerW2 W).bg := by
  after_results_simp <;> rfl
theorem post_wmix : post W (Proc.devRef .tc main_v187) = extractStridedSlice S32x32 ![0, 0] (PW layerW2 W).wgn Facts₀.slices_S64x32_S32x32_0_0 := by
  after_results_simp <;> rfl
theorem post_bias : post W (Proc.devRef .tc main_v193) = biasRow (gNext (W (Proc.devRef .tc main_v121)) (W (Proc.devRef .tc main_v168)) (PW layerW2 W).wg (PW layerW2 W).bg) (PW layerW2 W).wgn (PW layerW2 W).bgn := by
  after_results_simp <;> rfl
theorem post_wdv : post W (Proc.devRef .tc main_v195) = (PW layerW2 W).wdv := by
  after_results_simp <;> rfl
theorem post_bdv : post W (Proc.devRef .tc main_v197) = (PW layerW2 W).bdv := by
  after_results_simp <;> rfl

abbrev wrotePre : List (Ref sig .tc) :=
  [main_v136, main_c_16, main_v137, main_v138, main_c_17, main_v139, main_v140, main_v141, main_v142, main_v143, main_c_18, main_v144, main_v145, main_c_19, main_v146, main_v147, main_v148, main_v149, main_v150, main_v151, main_v152, main_v153, main_v154, main_v155, main_v156, main_v157]
abbrev wroteMid : List (Ref sig .tc) :=
  [main_cst_20, main_v159, main_v160, main_v161, main_v162, main_v163, main_v164, main_v165, main_v166, main_v167]
abbrev wrotePost : List (Ref sig .tc) :=
  [main_cst_21, main_v169, main_v170, main_cst_22, main_v171, main_v172, main_v173, main_v174, main_v175, main_v176, main_v177, main_v178, main_v179, main_v180, main_v181, main_v182, main_v183, main_call2_cst, main_call2_v0, main_v184, main_v185, main_v186, main_v187, main_v188, main_v189, main_v190, main_v191, main_v192, main_v193, main_v194, main_v195, main_v196, main_v197]

/-- Every operation of a stretch writes only references of the stretch's list. -/
theorem wrote_sub : WritesIn hostOps6 wrotePre
    ∧ WritesIn hostOps7 wroteMid
    ∧ WritesIn hostOps8 wrotePost
    ∧ WritesIn hostOps8_1 wrotePost
    ∧ WritesIn hostOps8_2 wrotePost := by
  refine ⟨?_, ?_, ?_, ?_, ?_⟩
  all_goals
    simp only [List.Forall]
    repeat' apply And.intro
    all_goals
      simp only [StableHlo.nullary_writes, StableHlo.unary_writes, StableHlo.binary_writes, StableHlo.ternary_writes, StableHlo.reshape_writes, Finset.singleton_subset_iff, List.mem_toFinset]
      exact List.mem_map_of_mem (by decide)

theorem pre_keep (r : Ref sig .tc) (h : r ∉ wrotePre) : after (hostOps6 (F := Ideal)) W (Proc.devRef .tc r) = W (Proc.devRef .tc r) :=
  after_of_writes_sub _ W wrote_sub.1 h
theorem mid_keep (r : Ref sig .tc) (h : r ∉ wroteMid) : after (hostOps7 (F := Ideal)) W (Proc.devRef .tc r) = W (Proc.devRef .tc r) :=
  after_of_writes_sub _ W wrote_sub.2.1 h
theorem post_keep (r : Ref sig .tc) (h : r ∉ wrotePost) : post W (Proc.devRef .tc r) = W (Proc.devRef .tc r) :=
  (after_of_writes_sub _ _ wrote_sub.2.2.2.2 h).trans ((after_of_writes_sub _ _ wrote_sub.2.2.2.1 h).trans (after_of_writes_sub _ W wrote_sub.2.2.1 h))

end Cert.GNN.KHost2

end
-- ==== Proof.MsgRegion6.lean ====
import proofs.«424204_j12678743458345_1_alg».proof.Proof.MsgRegion0

noncomputable section

namespace Cert.GNN

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem region6_out (c : Dev nD) :
    (dat6 (F := Ideal) V c).arrAt 8 cfg6.N
      = msgG (E := 3200000) (V c main_v143) (V c main_v150) (V c main_arg3) (V c main_v9) (V c main_v153) (V c main_v154) (V c main_v155) (V c main_v157) := by
  refine (dat6 V c).arrAt_eq_of_cover 8 _ (fun t _ => ?_) fun (i : S3200000x32.Idx) => ?_
  · show (cfg6.win 8).cut (grid6.coords t) ((dat6 V c).after 8 t) = _
    rw [after6_8, show out6_8 (F := Ideal) = out0_8 from rfl, out_eq]
    exact funext fun j => msg_point (rowBlk _ (win6_0.rect_emb_val t) (idx_row t)) (rowBlk _ (win6_1.rect_emb_val t) (idx_row t))
      (rowBlk _ (win6_2.rect_emb_val t) (idx_row t)) (rowBlk _ (win6_3.rect_emb_val t) (idx_row t))
      (wholeBlk _ (win6_4.rect_emb_val t) (idx_zero2 t)) (wholeBlk _ (win6_5.rect_emb_val t) (idx_zero2 t))
      (wholeBlk _ (win6_6.rect_emb_val t) (idx_zero2 t)) (wholeBlk _ (win6_7.rect_emb_val t) (idx_zero1 t))
      (win6_8.rect_emb_val t) (idx_row t) j
  · obtain ⟨t, ht⟩ := blk_pt i
    refine ⟨t, flush6_8 t, ?_⟩
    show i ∈ ((View.whole main_v158).slice (win6_8.rect t)).set
    rw [View.set_slice_whole, Rect.mem_set_unit]
    exact mem_rowBlk i ht (idx_row t)

end Cert.GNN

end
-- ==== Proof.NodeARegion7.lean ====
import proofs.«424204_j12678743458345_1_alg».proof.Proof.NodeAPay1

set_option maxRecDepth 16384

noncomputable section

namespace Cert.GNN

open Idealize.ShloMosaic Idealize.ShloMosaic.TcCoe Cert.KernelIdeal Cert.KernelIdeal.Gen

variable (V : (c : Dev nD) → (b : Ref sig .tc) → Buf (Elt Ideal) ((c : Thread nD τ).loc b))

/-- The block index at point t: (t, 0) for the two row-blocked inputs and the output, 0 for the weights and the bias. -/
theorem block_index7 : ∀ t : Fin cfg7.N,
    (∀ a, win7_0.index t a = ![t.val, 0] a) ∧ (∀ a, win7_1.index t a = ![t.val, 0] a) ∧ (∀ a, win7_2.index t a = 0)
    ∧ (∀ a, win7_3.index t a = 0) ∧ (∀ a, win7_4.index t a = 0) ∧ (∀ a, win7_5.index t a = ![t.val, 0] a) :=
  (by decide +kernel : ∀ t : Fin grid7.N, _)

/-- Block t of the output is block t of the whole-array node update, and the four blocks cover the rows. -/
theorem region7_out (c : Dev nD) :
    (dat7 (F := Ideal) V c).arrAt 5 cfg7.N
      = nodeAG (N := 100000) (V c main_v136) (V c main_v161) (V c main_v164) (V c main_v165) (V c main_v167) := by
  refine (dat7 (F := Ideal) V c).arrAt_eq_of_cover 5 _ (fun t _ => ?_) fun i => ?_
  · obtain ⟨i0, i1, i2, i3, i4, i5⟩ := block_index7 t
    show (cfg7.win 5).cut (grid7.coords t) ((dat7 V c).after 5 t) = _
    rw [after7_5]
    exact funext (nodeA_block (V c main_v136) (V c main_v161) (V c main_v164) (V c main_v165) (V c main_v167)
      (win7_0.rect t).emb (win7_1.rect t).emb (win7_2.rect t).emb (win7_3.rect t).emb (win7_4.rect t).emb
      (win7_5.rect t).emb t.val
      (fun x a => i0 a ▸ win7_0.rect_emb_val t x a) (fun x a => i1 a ▸ win7_1.rect_emb_val t x a)
      (fun x a => i2 a ▸ win7_2.rect_emb_val t x a) (fun x a => i3 a ▸ win7_3.rect_emb_val t x a)
      (fun x a => i4 a ▸ win7_4.rect_emb_val t x a) (fun x a => i5 a ▸ win7_5.rect_emb_val t x a))
  · have hi : (i 0).val < 100000 := (i 0).isLt
    obtain ⟨t, ht⟩ : ∃ t : Fin cfg7.N, t.val = (i 0).val / 25000 :=
      ⟨⟨(i 0).val / 25000, by rw [show cfg7.N = 4 from N_7]; omega⟩, rfl⟩
    refine ⟨t, flush7_5 t, ?_⟩
    show i ∈ ((View.whole main_v168).slice (win7_5.rect t)).set
    rw [View.set_slice_whole, Rect.mem_set_unit]
    exact nodeA_row_mem i _ fun a => ht ▸ (block_index7 t).2.2.2.2.2 a

end Cert.GNN

end
-- ==== Proof.NodeBRegion8.lean ====
import proofs.«424204_j12678743458345_1_alg».proof.Proof.NodeBRegion2

set_option maxRecDepth 16384

noncomputable section

namespace Cert.GNN

open Idealize.ShloMosaic Idealize.ShloMosaic.TcCoe Idealize.ShloMosaic.ValueIdx Idealize.SL.Sem
open Idealize.ShloMosaic.Pipeline (Dat)
open Cert.KernelIdeal Cert.KernelIdeal.Gen

open NodeBRegion2 (blockH blockV places rowPt mem_rowBlock)

namespace NodeBRegion8

theorem idx : ∀ t : Fin cfg8.N, (win8_6.index t = ![t.val, 0] ∧ win8_7.index t = ![t.val, 0]) ∧ win8_0.index t = ![t.val, 0]
    ∧ win8_1.index t = ![t.val, 0] ∧ (win8_2.index t = fun _ => 0) ∧ (win8_3.index t = fun _ => 0) ∧ (win8_4.index t = fun _ => 0)
    ∧ (win8_5.index t = fun _ => 0) :=
  (by decide +kernel : ∀ t : Fin grid8.N, _)

variable (V : (c : Dev nD) → (b : Ref sig .tc) → Buf (Elt Ideal) ((c : Thread nD τ).loc b))

theorem flushH (c : Dev nD) (t : Fin cfg8.N) : (dat8 (F := Ideal) V c).flushed 6 t
    = ((cfg8.win 6).blk t).view.read (Elt Ideal) (nodeBH (N := 100000) (V c main_v168) (V c main_v187) (V c main_v193)) := by
  obtain ⟨⟨h6, -⟩, h0, -, h2, h3, -, -⟩ := idx t
  show (cfg8.win 6).cut _ ((dat8 V c).after 6 t) = _
  rw [after8_6]
  exact blockH (V c main_v168) (V c main_v187) (V c main_v193) (places win8_0 t h0) (places win8_2 t h2) (places win8_3 t h3)
    (places win8_6 t h6)

theorem flushV (c : Dev nD) (t : Fin cfg8.N) : (dat8 (F := Ideal) V c).flushed 7 t
    = ((cfg8.win 7).blk t).view.read (Elt Ideal)
        (nodeBV (N := 100000) (V c main_v168) (V c main_v135_1) (V c main_v187) (V c main_v193) (V c main_v195) (V c main_v197)) := by
  obtain ⟨⟨-, h7⟩, h0, h1, h2, h3, h4, h5⟩ := idx t
  show (cfg8.win 7).cut _ ((dat8 V c).after 7 t) = _
  rw [after8_7]
  exact blockV (V c main_v168) (V c main_v135_1) (V c main_v187) (V c main_v193) (V c main_v195) (V c main_v197) (places win8_0 t h0)
    (places win8_1 t h1) (places win8_2 t h2) (places win8_3 t h3) (places win8_4 t h4) (places win8_5 t h5) (places win8_7 t h7)

end NodeBRegion8

open NodeBRegion8 in
theorem region8_outH (V : (c : Dev nD) → (b : Ref sig .tc) → Buf (Elt Ideal) ((c : Thread nD τ).loc b)) (c : Dev nD) :
    (dat8 (F := Ideal) V c).arrAt 6 cfg8.N = nodeBH (N := 100000) (V c main_v168) (V c main_v187) (V c main_v193) :=
  (dat8 (F := Ideal) V c).arrAt_eq_of_cover 6 _ (fun t _ => flushH V c t) fun (i : S100000x32.Idx) =>
    ⟨rowPt N_8 (i 0), flush8_6 _, mem_rowBlock (n := 25000) (View.set_slice_whole _ _) i (by decide) (idx _).1.1⟩

open NodeBRegion8 in
theorem region8_outV (V : (c : Dev nD) → (b : Ref sig .tc) → Buf (Elt Ideal) ((c : Thread nD τ).loc b)) (c : Dev nD) :
    (dat8 (F := Ideal) V c).arrAt 7 cfg8.N
      = nodeBV (N := 100000) (V c main_v168) (V c main_v135_1) (V c main_v187) (V c main_v193) (V c main_v195) (V c main_v197) :=
  (dat8 (F := Ideal) V c).arrAt_eq_of_cover 7 _ (fun t _ => flushV V c t) fun (i : S100000x2.Idx) =>
    ⟨rowPt N_8 (i 0), flush8_7 _, mem_rowBlock (n := 25000) (View.set_slice_whole _ _) i (by decide) (idx _).1.2⟩

end Cert.GNN

end
-- ==== Proof.KSteps2.lean ====
import proofs.«424204_j12678743458345_1_alg».proof.Proof.KInv
import proofs.«424204_j12678743458345_1_alg».proof.Proof.KHost2
import proofs.«424204_j12678743458345_1_alg».proof.Proof.MsgRegion6
import proofs.«424204_j12678743458345_1_alg».proof.Proof.NodeARegion7
import proofs.«424204_j12678743458345_1_alg».proof.Proof.NodeBRegion8

set_option maxRecDepth 16384

noncomputable section

namespace Cert.GNN.KSteps2

open Idealize.ShloMosaic Idealize.ShloMosaic.TcCoe Idealize.ShloMosaic.StableHlo Idealize.SL.Sem
open Cert.KernelIdeal Cert.KernelIdeal.Gen Cert.GNN Cert.GNN.KSide

variable (m : (ℓ : Loc nD τ sig) → Buf (Elt Ideal) ℓ) (ρ : Dev nD → PrngReg) (c : Dev nD)

/-- What neither the stretch before the node kernel nor that kernel writes is, at its exit, as at the message kernel's exit. -/
theorem k_n (r : Ref sig .tc) (u : r ∉ KHost2.wroteMid ∧ ∀ w, Pipeline.arrRef spec7 w ≠ r) :
    W20 m ρ c (Proc.devRef .tc r) = W18 m ρ c (Proc.devRef .tc r) :=
  (W20_of_ne m ρ c r u.2).trans (KHost2.mid_keep (W18 m ρ c) r u.1)

section Layer
variable (s : K.State) (h : At16 m ρ c s)
include h

theorem ae : ArgsAt m c (W17 m ρ c) := fun r hr =>
  (KHost2.pre_keep (W16 m ρ c) r ((by decide : ∀ r ∈ argRefs, r ∉ KHost2.wrotePre) r hr)).trans (h.args r hr)
theorem pwi : PW K.layerW2 (W16 m ρ c) = P2 m c := PW_eq m c _ h.args
theorem e_v : W17 m ρ c (Proc.devRef .tc main_v135_1) = s.v := (KHost2.pre_keep (W16 m ρ c) main_v135_1 (by decide)).trans h.v
theorem e_g : W17 m ρ c (Proc.devRef .tc main_v121) = s.g := (KHost2.pre_keep (W16 m ρ c) main_v121 (by decide)).trans h.g
theorem e_mask : V17 m ρ c main_v9 = K.maskCol (m ((c.tc : Thread nD τ).loc main_arg4)) := (KHost2.pre_keep (W16 m ρ c) main_v9 (by decide)).trans h.mask
theorem e_x : V17 m ρ c main_v136 = xOf s := (KHost2.pre_x (W16 m ρ c)).trans (by rw [h.v, h.h] <;> rfl)
theorem e_xs : V17 m ρ c main_v143 = K.gath (xOf s) (m ((c.tc : Thread nD τ).loc main_arg1)) :=
  (KHost2.pre_xs (W16 m ρ c)).trans (by rw [h.v, h.h, h.args main_arg1 (by decide)] <;> rfl)
theorem e_xr : V17 m ρ c main_v150 = K.gath (xOf s) (m ((c.tc : Thread nD τ).loc main_arg2)) :=
  (KHost2.pre_xr (W16 m ρ c)).trans (by rw [h.v, h.h, h.args main_arg2 (by decide)] <;> rfl)
theorem e_wa : V17 m ρ c main_v153 = extractStridedSlice S34x32 ![0, 0] (P2 m c).wm Facts₀.slices_S70x32_S34x32_0_0 :=
  (KHost2.pre_wa (W16 m ρ c)).trans (by rw [pwi m ρ c s h] <;> rfl)
theorem e_wb : V17 m ρ c main_v154 = extractStridedSlice S34x32 ![34, 0] (P2 m c).wm Facts₀.slices_S70x32_S34x32_34_0 :=
  (KHost2.pre_wb (W16 m ρ c)).trans (by rw [pwi m ρ c s h] <;> rfl)
theorem e_wc : V17 m ρ c main_v155 = extractStridedSlice S2x32 ![68, 0] (P2 m c).wm Facts₀.slices_S70x32_S2x32_68_0 :=
  (KHost2.pre_wc (W16 m ρ c)).trans (by rw [pwi m ρ c s h] <;> rfl)
theorem e_bm : V17 m ρ c main_v157 = (P2 m c).bm := (KHost2.pre_bm (W16 m ρ c)).trans (by rw [pwi m ρ c s h] <;> rfl)
theorem e_a3 : V17 m ρ c main_arg3 = (m ((c.tc : Thread nD τ).loc main_arg3)) := ae m ρ c s h main_arg3 (by decide)

theorem m_msg : W18 m ρ c (Proc.devRef .tc main_v158) = msgOf m c (P2 m c) s :=
  (W18_arr m ρ c 8).trans ((region6_out (V17 m ρ) c).trans (by
    rw [e_xs m ρ c s h, e_xr m ρ c s h, e_a3 m ρ c s h, e_mask m ρ c s h, e_wa m ρ c s h, e_wb m ρ c s h, e_wc m ρ c s h, e_bm m ρ c s h] <;> rfl))
theorem am : ArgsAt m c (W18 m ρ c) := fun r hr => by
  by_cases e : r = main_arg3
  · subst e
    exact ((W18_arr m ρ c 2).trans (((dat6 (V17 m ρ) c).arrAt_in 2 rfl _).trans (A_eq6 (V17 m ρ) c 2))).trans (ae m ρ c s h _ hr)
  · exact (W18_of_ne m ρ c r ((by decide : ∀ r ∈ argRefs, r ≠ main_arg3 → ∀ w, Pipeline.arrRef spec6 w ≠ r) r hr e)).trans (ae m ρ c s h r hr)
theorem pwm : PW K.layerW2 (W18 m ρ c) = P2 m c := PW_eq m c _ (am m ρ c s h)

theorem ne_x : V19 m ρ c main_v136 = xOf s :=
  (KHost2.mid_keep (W18 m ρ c) main_v136 (by decide)).trans ((W18_of_ne m ρ c main_v136 (by decide)).trans (e_x m ρ c s h))
theorem ne_agg : V19 m ρ c main_v161 = K.aggOf (m ((c.tc : Thread nD τ).loc main_arg2)) (msgOf m c (P2 m c) s) :=
  (KHost2.mid_agg (W18 m ρ c)).trans (by rw [am m ρ c s h main_arg2 (by decide), m_msg m ρ c s h] <;> rfl)
theorem ne_wx : V19 m ρ c main_v164 = extractStridedSlice S34x32 ![0, 0] (P2 m c).wn Facts₀.slices_S66x32_S34x32_0_0 :=
  (KHost2.mid_wx (W18 m ρ c)).trans (by rw [pwm m ρ c s h] <;> rfl)
theorem ne_wg : V19 m ρ c main_v165 = extractStridedSlice S32x32 ![34, 0] (P2 m c).wn Facts₀.slices_S66x32_S32x32_34_0 :=
  (KHost2.mid_wg (W18 m ρ c)).trans (by rw [pwm m ρ c s h] <;> rfl)
theorem ne_bn : V19 m ρ c main_v167 = (P2 m c).bn := (KHost2.mid_bn (W18 m ρ c)).trans (by rw [pwm m ρ c s h] <;> rfl)

theorem n_h1 : W20 m ρ c (Proc.devRef .tc main_v168) = h1Of m c (P2 m c) s :=
  (W20_arr m ρ c 5).trans ((region7_out (V19 m ρ) c).trans (by
    rw [ne_x m ρ c s h, ne_agg m ρ c s h, ne_wx m ρ c s h, ne_wg m ρ c s h, ne_bn m ρ c s h] <;> rfl))
theorem an : ArgsAt m c (W20 m ρ c) := fun r hr =>
  (k_n m ρ c r ((by decide : ∀ r ∈ argRefs, r ∉ KHost2.wroteMid ∧ ∀ w, Pipeline.arrRef spec7 w ≠ r) r hr)).trans (am m ρ c s h r hr)
theorem pwn : PW K.layerW2 (W20 m ρ c) = P2 m c := PW_eq m c _ (an m ρ c s h)
theorem n_g : W20 m ρ c (Proc.devRef .tc main_v121) = s.g :=
  (k_n m ρ c main_v121 (by decide)).trans ((W18_of_ne m ρ c main_v121 (by decide)).trans (e_g m ρ c s h))

theorem be_h1 : V23 m ρ c main_v168 = h1Of m c (P2 m c) s := (KHost2.post_keep (W20 m ρ c) main_v168 (by decide)).trans (n_h1 m ρ c s h)
theorem be_v : V23 m ρ c main_v135_1 = s.v :=
  (KHost2.post_keep (W20 m ρ c) main_v135_1 (by decide)).trans ((k_n m ρ c main_v135_1 (by decide)).trans ((W18_of_ne m ρ c main_v135_1 (by decide)).trans (e_v m ρ c s h)))
theorem be_wmix : V23 m ρ c main_v187 = extractStridedSlice S32x32 ![0, 0] (P2 m c).wgn Facts₀.slices_S64x32_S32x32_0_0 :=
  (KHost2.post_wmix (W20 m ρ c)).trans (by rw [pwn m ρ c s h] <;> rfl)
theorem be_bias : V23 m ρ c main_v193 = K.biasRow (gOf m c (P2 m c) s) (P2 m c).wgn (P2 m c).bgn :=
  (KHost2.post_bias (W20 m ρ c)).trans (by rw [n_g m ρ c s h, n_h1 m ρ c s h, pwn m ρ c s h] <;> rfl)
theorem be_wdv : V23 m ρ c main_v195 = (P2 m c).wdv := (KHost2.post_wdv (W20 m ρ c)).trans (by rw [pwn m ρ c s h] <;> rfl)
theorem be_bdv : V23 m ρ c main_v197 = (P2 m c).bdv := (KHost2.post_bdv (W20 m ρ c)).trans (by rw [pwn m ρ c s h] <;> rfl)

theorem _root_.Cert.GNN.KSide.layer2 : W24 m ρ c (Proc.devRef .tc main_v198_1) = (stepAt m c (P2 m c) s).v :=
  (W24_arr m ρ c 7).trans ((region8_outV (V23 m ρ) c).trans (by
    rw [be_h1 m ρ c s h, be_v m ρ c s h, be_wmix m ρ c s h, be_bias m ρ c s h, be_wdv m ρ c s h, be_bdv m ρ c s h] <;> rfl))

end Layer

end Cert.GNN.KSteps2

end
-- ==== Proof.KValue.lean ====
import proofs.«424204_j12678743458345_1_alg».proof.Proof.KSteps0
import proofs.«424204_j12678743458345_1_alg».proof.Proof.KSteps1
import proofs.«424204_j12678743458345_1_alg».proof.Proof.KSteps2

set_option maxRecDepth 16384

noncomputable section

namespace Cert.GNN.KSide

open Idealize.ShloMosaic Idealize.ShloMosaic.TcCoe Idealize.SL.Sem Cert.KernelIdeal Cert.KernelIdeal.Gen

theorem result_eq (m : (ℓ : Loc nD τ sig) → Buf (Elt Ideal) ℓ) (ρ : Dev nD → PrngReg) (c : Dev nD) :
    W24 m ρ c (Proc.devRef .tc main_v198_1) = (stepAt m c (P2 m c) (stepAt m c (P1 m c) (stepAt m c (P0 m c) (S0 m c)))).v :=
  layer2 m ρ c _ (layer1 m ρ c _ (layer0 m ρ c))

end Cert.GNN.KSide

end
-- ==== Proof.ROps.lean ====
import proofs.«424204_j12678743458345_1_alg».proof.Proof.Gen.ReferenceIdeal
import Idealize.ShloMosaic.Lib.StableHlo.Run

noncomputable section

namespace Cert.GNN.RSide

open Cert.ReferenceIdeal Cert.ReferenceIdeal.Gen Idealize.ShloMosaic Idealize.ShloMosaic.TcCoe Idealize.SL.Sem Idealize.ShloMosaic.StableHlo

variable {F : FTy → Type} [FloatOps F]

def cS : List (HloOp τ sig (Elt F)) :=
  [ nullary main_cst (constant S_ .f32 0x00000000#32),
    unary main_cst main_v0 (broadcastInDim S100000x2 ![] bcast_S_S100000x2),
    nullary main_c (constantI S_ 32 0#32),
    unary main_c main_v1 (broadcastInDim S1 ![] bcast_S_S1),
    nullary main_cst_0 (constant S_ .f32 0x3F800000#32),
    unary main_cst_0 main_v2 (broadcastInDim S100000 ![] bcast_S_S100000),
    ternary main_v0 main_v1 main_v2 main_v3 (fun x i u => Host.scatter scatter_S100000x2_S1_S100000_0_1_1_0 (fun _ b => b) x i u),
    binary main_arg0 main_arg5 main_v4 (fun l r => Host.dotGeneral dot_S100000x2_S2x32_S100000x32_1_0_0_1_n_n none l r),
    unary main_arg6 main_v5 (broadcastInDim S1x32 ![1] bcast_S32_S1x32_1),
    unary main_v5 main_v6 (broadcastInDim S100000x32 ![0, 1] bcast_S1x32_S100000x32_0_1),
    binary main_v4 main_v6 main_v7 addf,
    nullary main_cst_1 (constant S_ .f32 0x00000000#32),
    unary main_cst_1 main_v8 (broadcastInDim S1x32 ![] bcast_S_S1x32) ]

def cA0 : List (HloOp τ sig (Elt F)) :=
  [ binary main_v3 main_v7 main_v9 (fun a b => concatenate S100000x34 1 [⟨S100000x2, a⟩, ⟨S100000x32, b⟩] concatenates_S100000x2_S100000x32_S100000x34_d1),
    nullary main_c_2 (constantI S_ 32 0#32),
    unary main_c_2 main_v10 (broadcastInDim S3200000 ![] bcast_S_S3200000),
    binary main_arg1 main_v10 main_v11 (cmpi .slt),
    nullary main_c_3 (constantI S_ 32 100000#32),
    unary main_c_3 main_v12 (broadcastInDim S3200000 ![] bcast_S_S3200000),
    binary main_arg1 main_v12 main_v13 addi,
    ternary main_v11 main_v13 main_arg1 main_v14 select,
    unary main_v14 main_v15 (broadcastInDim S3200000x1 ![0] bcast_S3200000_S3200000x1_0),
    binary main_v9 main_v15 main_v16 (fun x i => Host.gather gather_S100000x34_S3200000x1_S3200000x34_1_0_n_n_0_1_134 x i),
    nullary main_c_4 (constantI S_ 32 0#32),
    unary main_c_4 main_v17 (broadcastInDim S3200000 ![] bcast_S_S3200000),
    binary main_arg2 main_v17 main_v18 (cmpi .slt),
    nullary main_c_5 (constantI S_ 32 100000#32),
    unary main_c_5 main_v19 (broadcastInDim S3200000 ![] bcast_S_S3200000),
    binary main_arg2 main_v19 main_v20 addi,
    ternary main_v18 main_v20 main_arg2 main_v21 select,
    unary main_v21 main_v22 (broadcastInDim S3200000x1 ![0] bcast_S3200000_S3200000x1_0),
    binary main_v9 main_v22 main_v23 (fun x i => Host.gather gather_S100000x34_S3200000x1_S3200000x34_1_0_n_n_0_1_134 x i) ]

def cM0 : List (HloOp τ sig (Elt F)) :=
  [ nary ![main_v16, main_v23, main_arg3] main_v24 (fun u => concatenate S3200000x70 1 [⟨S3200000x34, u 0⟩, ⟨S3200000x34, u 1⟩, ⟨S3200000x2, u 2⟩] concatenates_S3200000x34_S3200000x34_S3200000x2_S3200000x70_d1),
    unary main_arg7 main_v25 ((extractStridedSlice S1x70x32 ![0, 0, 0] · slices_S3x70x32_S1x70x32_0_0_0)),
    reshape main_v25 main_v26 rfl shapeCasts_S1x70x32_S70x32,
    binary main_v24 main_v26 main_v27 (fun l r => Host.dotGeneral dot_S3200000x70_S70x32_S3200000x32_1_0_0_1_n_n none l r),
    unary main_arg8 main_v28 ((extractStridedSlice S1x32 ![0, 0] · slices_S3x32_S1x32_0_0)),
    reshape main_v28 main_v29 rfl shapeCasts_S1x32_S32,
    unary main_v29 main_v30 (broadcastInDim S1x32 ![1] bcast_S32_S1x32_1),
    unary main_v30 main_v31 (broadcastInDim S3200000x32 ![0, 1] bcast_S1x32_S3200000x32_0_1),
    binary main_v27 main_v31 main_v32 addf,
    TRef.nullary (TRef.of (T := ⟨S_, .f32⟩) main_call0_cst) (constant S_ .f32 0x00000000#32),
    TRef.unary (TRef.of (T := ⟨S_, .f32⟩) main_call0_cst) (TRef.of (T := ⟨S3200000x32, .f32⟩) main_call0_v0) (broadcastInDim S3200000x32 ![] bcast_S_S3200000x32),
    TRef.binary (TRef.of (T := ⟨S3200000x32, .f32⟩) main_v32) (TRef.of (T := ⟨S3200000x32, .f32⟩) main_call0_v0) (TRef.of (T := ⟨S3200000x32, .f32⟩) main_v33) maximumf,
    unary main_arg4 main_v34 (broadcastInDim S3200000x1 ![0] bcast_S3200000_S3200000x1_0),
    unary main_v34 main_v35 (broadcastInDim S3200000x32 ![0, 1] bcast_S3200000x1_S3200000x32_0_1),
    binary main_v33 main_v35 main_v36 mulf ]

def cB0 : List (HloOp τ sig (Elt F)) :=
  [ nullary main_cst_6 (constant S_ .f32 0x00000000#32),
    unary main_cst_6 main_v37 (broadcastInDim S100000x32 ![] bcast_S_S100000x32),
    unary main_arg2 main_v38 (broadcastInDim S3200000x1 ![0] bcast_S3200000_S3200000x1_0),
    ternary main_v37 main_v38 main_v36 main_v39 (fun x i u => Host.scatterAdd scatter_S100000x32_S3200000x1_S3200000x32_1_0_0_1 x i u),
    binary main_v9 main_v39 main_v40 (fun a b => concatenate S100000x66 1 [⟨S100000x34, a⟩, ⟨S100000x32, b⟩] concatenates_S100000x34_S100000x32_S100000x66_d1),
    unary main_arg9 main_v41 ((extractStridedSlice S1x66x32 ![0, 0, 0] · slices_S3x66x32_S1x66x32_0_0_0)),
    reshape main_v41 main_v42 rfl shapeCasts_S1x66x32_S66x32,
    binary main_v40 main_v42 main_v43 (fun l r => Host.dotGeneral dot_S100000x66_S66x32_S100000x32_1_0_0_1_n_n none l r),
    unary main_arg10 main_v44 ((extractStridedSlice S1x32 ![0, 0] · slices_S3x32_S1x32_0_0)),
    reshape main_v44 main_v45 rfl shapeCasts_S1x32_S32,
    unary main_v45 main_v46 (broadcastInDim S1x32 ![1] bcast_S32_S1x32_1),
    unary main_v46 main_v47 (broadcastInDim S100000x32 ![0, 1] bcast_S1x32_S100000x32_0_1),
    binary main_v43 main_v47 main_v48 addf,
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v48) (TRef.of (T := ⟨S100000x32, .f32⟩) main_call1_v0) (TRef.of (T := ⟨S100000x32, .f32⟩) main_v49) maximumf ]

def cC0 : List (HloOp τ sig (Elt F)) :=
  [ nullary main_cst_7 (constant S_ .f32 0x00000000#32),
    binary main_v49 main_cst_7 main_v50 (fun x v => Host.reduceAdd x v reducesTo_S100000x32_S32_d0 h_S_),
    unary main_v50 main_v51 (broadcastInDim S1x32 ![1] bcast_S32_S1x32_1),
    nullary main_cst_8 (constant S_ .f32 0x47C35000#32),
    unary main_cst_8 main_v52 (broadcastInDim S1x32 ![] bcast_S_S1x32),
    binary main_v51 main_v52 main_v53 (Host.divf),
    binary main_v8 main_v53 main_v54 (fun a b => concatenate S1x64 1 [⟨S1x32, a⟩, ⟨S1x32, b⟩] concatenates_S1x32_S1x32_S1x64_d1),
    unary main_arg11 main_v55 ((extractStridedSlice S1x64x32 ![0, 0, 0] · slices_S3x64x32_S1x64x32_0_0_0)),
    reshape main_v55 main_v56 rfl shapeCasts_S1x64x32_S64x32,
    binary main_v54 main_v56 main_v57 (fun l r => Host.dotGeneral dot_S1x64_S64x32_S1x32_1_0_0_1_n_n none l r),
    unary main_arg12 main_v58 ((extractStridedSlice S1x32 ![0, 0] · slices_S3x32_S1x32_0_0)),
    reshape main_v58 main_v59 rfl shapeCasts_S1x32_S32,
    unary main_v59 main_v60 (broadcastInDim S1x32 ![1] bcast_S32_S1x32_1),
    binary main_v57 main_v60 main_v61 addf,
    TRef.nullary (TRef.of (T := ⟨S_, .f32⟩) main_call2_cst) (constant S_ .f32 0x00000000#32),
    TRef.unary (TRef.of (T := ⟨S_, .f32⟩) main_call2_cst) (TRef.of (T := ⟨S1x32, .f32⟩) main_call2_v0) (broadcastInDim S1x32 ![] bcast_S_S1x32),
    TRef.binary (TRef.of (T := ⟨S1x32, .f32⟩) main_v61) (TRef.of (T := ⟨S1x32, .f32⟩) main_call2_v0) (TRef.of (T := ⟨S1x32, .f32⟩) main_v62) maximumf ]

def cD0 : List (HloOp τ sig (Elt F)) :=
  [ unary main_v62 main_v63 (broadcastInDim S100000x32 ![0, 1] bcast_S1x32_S100000x32_0_1),
    binary main_v49 main_v63 main_v64 (fun a b => concatenate S100000x64 1 [⟨S100000x32, a⟩, ⟨S100000x32, b⟩] concatenates_S100000x32_S100000x32_S100000x64_d1),
    unary main_arg13 main_v65 ((extractStridedSlice S1x64x32 ![0, 0, 0] · slices_S3x64x32_S1x64x32_0_0_0)),
    reshape main_v65 main_v66 rfl shapeCasts_S1x64x32_S64x32,
    binary main_v64 main_v66 main_v67 (fun l r => Host.dotGeneral dot_S100000x64_S64x32_S100000x32_1_0_0_1_n_n none l r),
    unary main_arg14 main_v68 ((extractStridedSlice S1x32 ![0, 0] · slices_S3x32_S1x32_0_0)),
    reshape main_v68 main_v69 rfl shapeCasts_S1x32_S32,
    unary main_v69 main_v70 (broadcastInDim S1x32 ![1] bcast_S32_S1x32_1),
    unary main_v70 main_v71 (broadcastInDim S100000x32 ![0, 1] bcast_S1x32_S100000x32_0_1),
    binary main_v67 main_v71 main_v72 addf,
    TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v72) (TRef.of (T := ⟨S100000x32, .f32⟩) main_call3_v0) (TRef.of (T := ⟨S100000x32, .f32⟩) main_v73) maximumf ]

def cE0 : List (HloOp τ sig (Elt F)) :=
  [ unary main_arg15 main_v74 ((extractStridedSlice S1x32x2 ![0, 0, 0] · slices_S3x32x2_S1x32x2_0_0_0)),
    reshape main_v74 main_v75 rfl shapeCasts_S1x32x2_S32x2,
    binary main_v73 main_v75 main_v76 (fun l r => Host.dotGeneral dot_S100000x32_S32x2_S100000x2_1_0_0_1_n_n none l r),
    unary main_arg16 main_v77 ((extractStridedSlice S1x2 ![0, 0] · slices_S3x2_S1x2_0_0)),
    reshape main_v77 main_v78 rfl shapeCasts_S1x2_S2,
    unary main_v78 main_v79 (broadcastInDim S1x2 ![1] bcast_S2_S1x2_1),
    unary main_v79 main_v80 (broadcastInDim S100000x2 ![0, 1] bcast_S1x2_S100000x2_0_1),
    binary main_v76 main_v80 main_v81 addf,
    binary main_v3 main_v81 main_v82 addf ]

def cA1 : List (HloOp τ sig (Elt F)) :=
  [ binary main_v82 main_v73 main_v83 (fun a b => concatenate S100000x34 1 [⟨S100000x2, a⟩, ⟨S100000x32, b⟩] concatenates_S100000x2_S100000x32_S100000x34_d1),
    nullary main_c_9 (constantI S_ 32 0#32),
    unary main_c_9 main_v84 (broadcastInDim S3200000 ![] bcast_S_S3200000),
    binary main_arg1 main_v84 main_v85 (cmpi .slt),
    nullary main_c_10 (constantI S_ 32 100000#32),
    unary main_c_10 main_v86 (broadcastInDim S3200000 ![] bcast_S_S3200000),
    binary main_arg1 main_v86 main_v87 addi,
    ternary main_v85 main_v87 main_arg1 main_v88 select,
    unary main_v88 main_v89 (broadcastInDim S3200000x1 ![0] bcast_S3200000_S3200000x1_0),
    binary main_v83 main_v89 main_v90 (fun x i => Host.gather gather_S100000x34_S3200000x1_S3200000x34_1_0_n_n_0_1_134 x i),
    nullary main_c_11 (constantI S_ 32 0#32),
    unary main_c_11 main_v91 (broadcastInDim S3200000 ![] bcast_S_S3200000),
    binary main_arg2 main_v91 main_v92 (cmpi .slt),
    nullary main_c_12 (constantI S_ 32 100000#32),
    unary main_c_12 main_v93 (broadcastInDim S3200000 ![] bcast_S_S3200000),
    binary main_arg2 main_v93 main_v94 addi,
    ternary main_v92 main_v94 main_arg2 main_v95 select,
    unary main_v95 main_v96 (broadcastInDim S3200000x1 ![0] bcast_S3200000_S3200000x1_0),
    binary main_v83 main_v96 main_v97 (fun x i => Host.gather gather_S100000x34_S3200000x1_S3200000x34_1_0_n_n_0_1_134 x i) ]

def cM1 : List (HloOp τ sig (Elt F)) :=
  [ nary ![main_v90, main_v97, main_arg3] main_v98 (fun u => concatenate S3200000x70 1 [⟨S3200000x34, u 0⟩, ⟨S3200000x34, u 1⟩, ⟨S3200000x2, u 2⟩] concatenates_S3200000x34_S3200000x34_S3200000x2_S3200000x70_d1),
    unary main_arg7 main_v99 ((extractStridedSlice S1x70x32 ![1, 0, 0] · slices_S3x70x32_S1x70x32_1_0_0)),
    reshape main_v99 main_v100 rfl shapeCasts_S1x70x32_S70x32,
    binary main_v98 main_v100 main_v101 (fun l r => Host.dotGeneral dot_S3200000x70_S70x32_S3200000x32_1_0_0_1_n_n none l r),
    unary main_arg8 main_v102 ((extractStridedSlice S1x32 ![1, 0] · slices_S3x32_S1x32_1_0)),
    reshape main_v102 main_v103 rfl shapeCasts_S1x32_S32,
    unary main_v103 main_v104 (broadcastInDim S1x32 ![1] bcast_S32_S1x32_1),
    unary main_v104 main_v105 (broadcastInDim S3200000x32 ![0, 1] bcast_S1x32_S3200000x32_0_1),
    binary main_v101 main_v105 main_v106 addf,
    TRef.nullary (TRef.of (T := ⟨S_, .f32⟩) main_call4_cst) (constant S_ .f32 0x00000000#32),
    TRef.unary (TRef.of (T := ⟨S_, .f32⟩) main_call4_cst) (TRef.of (T := ⟨S3200000x32, .f32⟩) main_call4_v0) (broadcastInDim S3200000x32 ![] bcast_S_S3200000x32),
    TRef.binary (TRef.of (T := ⟨S3200000x32, .f32⟩) main_v106) (TRef.of (T := ⟨S3200000x32, .f32⟩) main_call4_v0) (TRef.of (T := ⟨S3200000x32, .f32⟩) main_v107) maximumf,
    unary main_arg4 main_v108 (broadcastInDim S3200000x1 ![0] bcast_S3200000_S3200000x1_0),
    unary main_v108 main_v109 (broadcastInDim S3200000x32 ![0, 1] bcast_S3200000x1_S3200000x32_0_1),
    binary main_v107 main_v109 main_v110 mulf ]

def cB1 : List (HloOp τ sig (Elt F)) :=
  [ nullary main_cst_13 (constant S_ .f32 0x00000000#32),
    unary main_cst_13 main_v111 (broadcastInDim S100000x32 ![] bcast_S_S100000x32),
    unary main_arg2 main_v112 (broadcastInDim S3200000x1 ![0] bcast_S3200000_S3200000x1_0),
    ternary main_v111 main_v112 main_v110 main_v113 (fun x i u => Host.scatterAdd scatter_S100000x32_S3200000x1_S3200000x32_1_0_0_1 x i u),
    binary main_v83 main_v113 main_v114 (fun a b => concatenate S100000x66 1 [⟨S100000x34, a⟩, ⟨S100000x32, b⟩] concatenates_S100000x34_S100000x32_S100000x66_d1),
    unary main_arg9 main_v115 ((extractStridedSlice S1x66x32 ![1, 0, 0] · slices_S3x66x32_S1x66x32_1_0_0)),
    reshape main_v115 main_v116 rfl shapeCasts_S1x66x32_S66x32,
    binary main_v114 main_v116 main_v117 (fun l r => Host.dotGeneral dot_S100000x66_S66x32_S100000x32_1_0_0_1_n_n none l r),
    unary main_arg10 main_v118 ((extractStridedSlice S1x32 ![1, 0] · slices_S3x32_S1x32_1_0)),
    reshape main_v118 main_v119 rfl shapeCasts_S1x32_S32,
    unary main_v119 main_v120 (broadcastInDim S1x32 ![1] bcast_S32_S1x32_1),
    unary main_v120 main_v121 (broadcastInDim S100000x32 ![0, 1] bcast_S1x32_S100000x32_0_1),
    binary main_v117 main_v121 main_v122 addf,
    TRef.nullary (TRef.of (T := ⟨S_, .f32⟩) main_call5_cst) (constant S_ .f32 0x00000000#32),
    TRef.unary (TRef.of (T := ⟨S_, .f32⟩) main_call5_cst) (TRef.of (T := ⟨S100000x32, .f32⟩) main_call5_v0) (broadcastInDim S100000x32 ![] bcast_S_S100000x32),
    TRef.binary (TRef.of (T := ⟨S100000x32, .f32⟩) main_v122) (TRef.of (T := ⟨S100000x32, .f32⟩) main_call5_v0) (TRef.of (T := ⟨S100000x32, .f32⟩) main_v123) maximumf ]

def cC1 : List (HloOp τ sig (Elt F)) :=
  [ nullary main_cst_14 (constant S_ .f32 0x00000000#32),
    binary main_v123 main_cst_14 main_v124 (fun x v => Host.reduceAdd x v reducesTo_S100000x32_S32_d0 h_S_),
    unary main_v124 main_v125 (broadcastInDim S1x32 ![1] bcast_S32_S1x32_1),
    nullary main_cst_15 (constant S_ .f32 0x47C35000#32),
    unary main_cst_15 main_v126 (broadcastInDim S1x32 ![] bcast_S_S1x32),
    binary main_v125 main_v126 main_v127 (Host.divf),
    binary main_v62 main_v127 main_v128 (fun a b => concatenate S1x64 1 [⟨S1x32, a⟩, ⟨S1x32, b⟩] concatenates_S1x32_S1x32_S1x64_d1),
    unary main_arg11 main_v129 ((extractStridedSlice S1x64x32 ![1, 0, 0] · slices_S3x64x32_S1x64x32_1_0_0)),
    reshape main_v129 main_v130 rfl shapeCasts_S1x64x32_S64x32,
    binary main_v128 main_v130 main_v131 (fun l r => Host.dotGeneral dot_S1x64_S64x32_S1x32_1_0_0_1_n_n none l r),
    unary main_arg12 main_v132 ((extractStridedSlice S1x32 ![1, 0] · slices_S3x32_S1x32_1_0)),
    reshape main_v132 main_v133 rfl shapeCasts_S1x32_S32,
    unary main_v133 main_v134 (broadcastInDim S1x32 ![1] bcast_S32_S1x32_1),
    binary main_v131 main_v134 main_v135 addf,
    TRef.nullary (TRef.of (T := ⟨S_, .f32⟩) main_call6_cst) (constant S_ .f32 0x00000000#32),
    TRef.unary (TRef.of (T := ⟨S_, .f32⟩) main_call6_cst) (TRef.of (T := ⟨S1x32, .f32⟩) main_call6_v0) (broadcastInDim S1x32 ![] bcast_S_S1x32),
    TRef.binary (TRef.of (T := ⟨S1x32, .f32⟩) main_v135) (TRef.of (T := ⟨S1x32, .f32⟩) main_call6_v0) (TRef.of (T := ⟨S1x32, .f32⟩) main_v136) maximumf ]

def cD1 : List (HloOp τ sig (Elt F)) :=
  [ unary main_v136 main_v137 (broadcastInDim S100000x32 ![0, 1] bcast_S1x32_S100000x32_0_1),
    binary main_v123 main_v137 main_v138 (fun a b => concatenate S100000x64 1 [⟨S100000x32, a⟩, ⟨S100000x32, b⟩] concatenates_S100000x32_S100000x32_S100000x64_d1),
    unary main_arg13 main_v139 ((extractStridedSlice S1x64x32 ![1, 0, 0] · slices_S3x64x32_S1x64x32_1_0_0)),
    reshape main_v139 main_v140 rfl shapeCasts_S1x64x32_S64x32,
    binary main_v138 main_v140 main_v141 (fun l r => Host.dotGeneral dot_S100000x64_S64x32_S100000x32_1_0_0_1_n_n none l r),
    unary main_arg14 main_v142 ((extractStridedSlice S1x32 ![1, 0] · slices_S3x32_S1x32_1_0)),
    reshape main_v142 main_v143 rfl shapeCasts_S1x32_S32,
    unary main_v143 main_v144 (broadcastInDim S1x32 ![1] bcast_S32_S1x32_1),
    unary main_v144 main_v145 (broadcastInDim S100000x32 ![0, 1] bcast_S1x32_S100000x32_0_1),
    binary main_v141 main_v145 main_v146 addf,
    TRef.nullary (TRef.of (T := ⟨S_, .f32⟩) main_call7_cst) (constant S_ .f32 0x00000000#32),
    TRef.unary (TRef.of (T := ⟨S_, .f32⟩) main_call7_cst) (TRef.of (T := ⟨S100000x32, .f32⟩) main_call7_v0) (broadcastInDim S100000x32 ![] bcast_S_S100000x32),
    TRef.binary (TRef.of (T := ⟨S100000x32, .f32⟩) main_v146) (TRef.of (T := ⟨S100000x32, .f32⟩) main_call7_v0) (TRef.of (T := ⟨S100000x32, .f32⟩) main_v147) maximumf ]

def cE1 : List (HloOp τ sig (Elt F)) :=
  [ unary main_arg15 main_v148 ((extractStridedSlice S1x32x2 ![1, 0, 0] · slices_S3x32x2_S1x32x2_1_0_0)),
    reshape main_v148 main_v149 rfl shapeCasts_S1x32x2_S32x2,
    binary main_v147 main_v149 main_v150 (fun l r => Host.dotGeneral dot_S100000x32_S32x2_S100000x2_1_0_0_1_n_n none l r),
    unary main_arg16 main_v151 ((extractStridedSlice S1x2 ![1, 0] · slices_S3x2_S1x2_1_0)),
    reshape main_v151 main_v152 rfl shapeCasts_S1x2_S2,
    unary main_v152 main_v153 (broadcastInDim S1x2 ![1] bcast_S2_S1x2_1),
    unary main_v153 main_v154 (broadcastInDim S100000x2 ![0, 1] bcast_S1x2_S100000x2_0_1),
    binary main_v150 main_v154 main_v155 addf,
    binary main_v82 main_v155 main_v156 addf ]

def cA2 : List (HloOp τ sig (Elt F)) :=
  [ binary main_v156 main_v147 main_v157 (fun a b => concatenate S100000x34 1 [⟨S100000x2, a⟩, ⟨S100000x32, b⟩] concatenates_S100000x2_S100000x32_S100000x34_d1),
    nullary main_c_16 (constantI S_ 32 0#32),
    unary main_c_16 main_v158 (broadcastInDim S3200000 ![] bcast_S_S3200000),
    binary main_arg1 main_v158 main_v159 (cmpi .slt),
    nullary main_c_17 (constantI S_ 32 100000#32),
    unary main_c_17 main_v160 (broadcastInDim S3200000 ![] bcast_S_S3200000),
    binary main_arg1 main_v160 main_v161 addi,
    ternary main_v159 main_v161 main_arg1 main_v162 select,
    unary main_v162 main_v163 (broadcastInDim S3200000x1 ![0] bcast_S3200000_S3200000x1_0),
    binary main_v157 main_v163 main_v164 (fun x i => Host.gather gather_S100000x34_S3200000x1_S3200000x34_1_0_n_n_0_1_134 x i),
    nullary main_c_18 (constantI S_ 32 0#32),
    unary main_c_18 main_v165 (broadcastInDim S3200000 ![] bcast_S_S3200000),
    binary main_arg2 main_v165 main_v166 (cmpi .slt),
    nullary main_c_19 (constantI S_ 32 100000#32),
    unary main_c_19 main_v167 (broadcastInDim S3200000 ![] bcast_S_S3200000),
    binary main_arg2 main_v167 main_v168 addi,
    ternary main_v166 main_v168 main_arg2 main_v169 select,
    unary main_v169 main_v170 (broadcastInDim S3200000x1 ![0] bcast_S3200000_S3200000x1_0),
    binary main_v157 main_v170 main_v171 (fun x i => Host.gather gather_S100000x34_S3200000x1_S3200000x34_1_0_n_n_0_1_134 x i) ]

def cM2 : List (HloOp τ sig (Elt F)) :=
  [ nary ![main_v164, main_v171, main_arg3] main_v172 (fun u => concatenate S3200000x70 1 [⟨S3200000x34, u 0⟩, ⟨S3200000x34, u 1⟩, ⟨S3200000x2, u 2⟩] concatenates_S3200000x34_S3200000x34_S3200000x2_S3200000x70_d1),
    unary main_arg7 main_v173 ((extractStridedSlice S1x70x32 ![2, 0, 0] · slices_S3x70x32_S1x70x32_2_0_0)),
    reshape main_v173 main_v174 rfl shapeCasts_S1x70x32_S70x32,
    binary main_v172 main_v174 main_v175 (fun l r => Host.dotGeneral dot_S3200000x70_S70x32_S3200000x32_1_0_0_1_n_n none l r),
    unary main_arg8 main_v176 ((extractStridedSlice S1x32 ![2, 0] · slices_S3x32_S1x32_2_0)),
    reshape main_v176 main_v177 rfl shapeCasts_S1x32_S32,
    unary main_v177 main_v178 (broadcastInDim S1x32 ![1] bcast_S32_S1x32_1),
    unary main_v178 main_v179 (broadcastInDim S3200000x32 ![0, 1] bcast_S1x32_S3200000x32_0_1),
    binary main_v175 main_v179 main_v180 addf,
    TRef.nullary (TRef.of (T := ⟨S_, .f32⟩) main_call8_cst) (constant S_ .f32 0x00000000#32),
    TRef.unary (TRef.of (T := ⟨S_, .f32⟩) main_call8_cst) (TRef.of (T := ⟨S3200000x32, .f32⟩) main_call8_v0) (broadcastInDim S3200000x32 ![] bcast_S_S3200000x32),
    TRef.binary (TRef.of (T := ⟨S3200000x32, .f32⟩) main_v180) (TRef.of (T := ⟨S3200000x32, .f32⟩) main_call8_v0) (TRef.of (T := ⟨S3200000x32, .f32⟩) main_v181) maximumf,
    unary main_arg4 main_v182 (broadcastInDim S3200000x1 ![0] bcast_S3200000_S3200000x1_0),
    unary main_v182 main_v183 (broadcastInDim S3200000x32 ![0, 1] bcast_S3200000x1_S3200000x32_0_1),
    binary main_v181 main_v183 main_v184 mulf ]

def cB2 : List (HloOp τ sig (Elt F)) :=
  [ nullary main_cst_20 (constant S_ .f32 0x00000000#32),
    unary main_cst_20 main_v185 (broadcastInDim S100000x32 ![] bcast_S_S100000x32),
    unary main_arg2 main_v186 (broadcastInDim S3200000x1 ![0] bcast_S3200000_S3200000x1_0),
    ternary main_v185 main_v186 main_v184 main_v187 (fun x i u => Host.scatterAdd scatter_S100000x32_S3200000x1_S3200000x32_1_0_0_1 x i u),
    binary main_v157 main_v187 main_v188 (fun a b => concatenate S100000x66 1 [⟨S100000x34, a⟩, ⟨S100000x32, b⟩] concatenates_S100000x34_S100000x32_S100000x66_d1),
    unary main_arg9 main_v189 ((extractStridedSlice S1x66x32 ![2, 0, 0] · slices_S3x66x32_S1x66x32_2_0_0)),
    reshape main_v189 main_v190 rfl shapeCasts_S1x66x32_S66x32,
    binary main_v188 main_v190 main_v191 (fun l r => Host.dotGeneral dot_S100000x66_S66x32_S100000x32_1_0_0_1_n_n none l r),
    unary main_arg10 main_v192 ((extractStridedSlice S1x32 ![2, 0] · slices_S3x32_S1x32_2_0)),
    reshape main_v192 main_v193 rfl shapeCasts_S1x32_S32,
    unary main_v193 main_v194 (broadcastInDim S1x32 ![1] bcast_S32_S1x32_1),
    unary main_v194 main_v195 (broadcastInDim S100000x32 ![0, 1] bcast_S1x32_S100000x32_0_1),
    binary main_v191 main_v195 main_v196 addf,
    TRef.nullary (TRef.of (T := ⟨S_, .f32⟩) main_call9_cst) (constant S_ .f32 0x00000000#32),
    TRef.unary (TRef.of (T := ⟨S_, .f32⟩) main_call9_cst) (TRef.of (T := ⟨S100000x32, .f32⟩) main_call9_v0) (broadcastInDim S100000x32 ![] bcast_S_S100000x32),
    TRef.binary (TRef.of (T := ⟨S100000x32, .f32⟩) main_v196) (TRef.of (T := ⟨S100000x32, .f32⟩) main_call9_v0) (TRef.of (T := ⟨S100000x32, .f32⟩) main_v197) maximumf ]

def cC2 : List (HloOp τ sig (Elt F)) :=
  [ nullary main_cst_21 (constant S_ .f32 0x00000000#32),
    binary main_v197 main_cst_21 main_v198 (fun x v => Host.reduceAdd x v reducesTo_S100000x32_S32_d0 h_S_),
    unary main_v198 main_v199 (broadcastInDim S1x32 ![1] bcast_S32_S1x32_1),
    nullary main_cst_22 (constant S_ .f32 0x47C35000#32),
    unary main_cst_22 main_v200 (broadcastInDim S1x32 ![] bcast_S_S1x32),
    binary main_v199 main_v200 main_v201 (Host.divf),
    binary main_v136 main_v201 main_v202 (fun a b => concatenate S1x64 1 [⟨S1x32, a⟩, ⟨S1x32, b⟩] concatenates_S1x32_S1x32_S1x64_d1),
    unary main_arg11 main_v203 ((extractStridedSlice S1x64x32 ![2, 0, 0] · slices_S3x64x32_S1x64x32_2_0_0)),
    reshape main_v203 main_v204 rfl shapeCasts_S1x64x32_S64x32,
    binary main_v202 main_v204 main_v205 (fun l r => Host.dotGeneral dot_S1x64_S64x32_S1x32_1_0_0_1_n_n none l r),
    unary main_arg12 main_v206 ((extractStridedSlice S1x32 ![2, 0] · slices_S3x32_S1x32_2_0)),
    reshape main_v206 main_v207 rfl shapeCasts_S1x32_S32,
    unary main_v207 main_v208 (broadcastInDim S1x32 ![1] bcast_S32_S1x32_1),
    binary main_v205 main_v208 main_v209 addf,
    TRef.nullary (TRef.of (T := ⟨S_, .f32⟩) main_call10_cst) (constant S_ .f32 0x00000000#32),
    TRef.unary (TRef.of (T := ⟨S_, .f32⟩) main_call10_cst) (TRef.of (T := ⟨S1x32, .f32⟩) main_call10_v0) (broadcastInDim S1x32 ![] bcast_S_S1x32),
    TRef.binary (TRef.of (T := ⟨S1x32, .f32⟩) main_v209) (TRef.of (T := ⟨S1x32, .f32⟩) main_call10_v0) (TRef.of (T := ⟨S1x32, .f32⟩) main_v210) maximumf ]

def cD2 : List (HloOp τ sig (Elt F)) :=
  [ unary main_v210 main_v211 (broadcastInDim S100000x32 ![0, 1] bcast_S1x32_S100000x32_0_1),
    binary main_v197 main_v211 main_v212 (fun a b => concatenate S100000x64 1 [⟨S100000x32, a⟩, ⟨S100000x32, b⟩] concatenates_S100000x32_S100000x32_S100000x64_d1),
    unary main_arg13 main_v213 ((extractStridedSlice S1x64x32 ![2, 0, 0] · slices_S3x64x32_S1x64x32_2_0_0)),
    reshape main_v213 main_v214 rfl shapeCasts_S1x64x32_S64x32,
    binary main_v212 main_v214 main_v215 (fun l r => Host.dotGeneral dot_S100000x64_S64x32_S100000x32_1_0_0_1_n_n none l r),
    unary main_arg14 main_v216 ((extractStridedSlice S1x32 ![2, 0] · slices_S3x32_S1x32_2_0)),
    reshape main_v216 main_v217 rfl shapeCasts_S1x32_S32,
    unary main_v217 main_v218 (broadcastInDim S1x32 ![1] bcast_S32_S1x32_1),
    unary main_v218 main_v219 (broadcastInDim S100000x32 ![0, 1] bcast_S1x32_S100000x32_0_1),
    binary main_v215 main_v219 main_v220 addf,
    TRef.nullary (TRef.of (T := ⟨S_, .f32⟩) main_call11_cst) (constant S_ .f32 0x00000000#32),
    TRef.unary (TRef.of (T := ⟨S_, .f32⟩) main_call11_cst) (TRef.of (T := ⟨S100000x32, .f32⟩) main_call11_v0) (broadcastInDim S100000x32 ![] bcast_S_S100000x32),
    TRef.binary (TRef.of (T := ⟨S100000x32, .f32⟩) main_v220) (TRef.of (T := ⟨S100000x32, .f32⟩) main_call11_v0) (TRef.of (T := ⟨S100000x32, .f32⟩) main_v221) maximumf ]

def cE2 : List (HloOp τ sig (Elt F)) :=
  [ unary main_arg15 main_v222 ((extractStridedSlice S1x32x2 ![2, 0, 0] · slices_S3x32x2_S1x32x2_2_0_0)),
    reshape main_v222 main_v223 rfl shapeCasts_S1x32x2_S32x2,
    binary main_v221 main_v223 main_v224 (fun l r => Host.dotGeneral dot_S100000x32_S32x2_S100000x2_1_0_0_1_n_n none l r),
    unary main_arg16 main_v225 ((extractStridedSlice S1x2 ![2, 0] · slices_S3x2_S1x2_2_0)),
    reshape main_v225 main_v226 rfl shapeCasts_S1x2_S2,
    unary main_v226 main_v227 (broadcastInDim S1x2 ![1] bcast_S2_S1x2_1),
    unary main_v227 main_v228 (broadcastInDim S100000x2 ![0, 1] bcast_S1x2_S100000x2_0_1),
    binary main_v224 main_v228 main_v229 addf,
    binary main_v156 main_v229 main_v230 addf ]

end Cert.GNN.RSide

namespace Cert.ReferenceIdeal.RunP

open Cert.ReferenceIdeal Cert.ReferenceIdeal.Gen Idealize.ShloMosaic Idealize.ShloMosaic.TcCoe Idealize.SL.Sem Idealize.ShloMosaic.StableHlo Cert.GNN.RSide

variable {F : FTy → Type} [FloatOps F]

abbrev ops : List (HloOp τ sig (Elt F)) := cS ++ ((cA0 ++ (cM0 ++ (cB0 ++ (cC0 ++ (cD0 ++ cE0))))) ++ ((cA1 ++ (cM1 ++ (cB1 ++ (cC1 ++ (cD1 ++ cE1))))) ++ (cA2 ++ (cM2 ++ (cB2 ++ (cC2 ++ (cD2 ++ cE2)))))))

abbrev w0 : List (HloOp τ sig (Elt F)) := cS ++ (cA0 ++ (cM0 ++ (cB0 ++ cC0.take 1)))
abbrev w1 : List (HloOp τ sig (Elt F)) := cC0.drop 1 ++ (cD0 ++ (cE0 ++ (cA1 ++ cM1.take 7)))
abbrev w2 : List (HloOp τ sig (Elt F)) := cM1.drop 7 ++ (cB1 ++ (cC1 ++ (cD1 ++ (cE1 ++ cA2.take 5))))
abbrev w3 : List (HloOp τ sig (Elt F)) := cA2.drop 5 ++ (cM2 ++ (cB2 ++ (cC2 ++ cD2.take 4)))
abbrev w4 : List (HloOp τ sig (Elt F)) := cD2.drop 4 ++ cE2

theorem main_part0_eq (c : Dev nD) : main_part0 (F := F) c = seq w0 := rfl
theorem main_part1_eq (c : Dev nD) : main_part1 (F := F) c = seq w1 := rfl
theorem main_part2_eq (c : Dev nD) : main_part2 (F := F) c = seq w2 := rfl
theorem main_part3_eq (c : Dev nD) : main_part3 (F := F) c = seq w3 := rfl
theorem main_part4_eq (c : Dev nD) : main_part4 (F := F) c = seq w4 := rfl

theorem ops_parts : (ops : List (HloOp τ sig (Elt F))) = w0 ++ (w1 ++ (w2 ++ (w3 ++ w4))) := rfl

theorem main_eq (c : Dev nD) : main (F := F) c = seq ops := by
  unfold main
  rw [main_part0_eq, main_part1_eq, main_part2_eq, main_part3_eq, main_part4_eq, ops_parts]
  simp only [seq_append]

theorem scopedRefs_eq : (Finset.univ.filter fun b : Ref sig .tc => b.isScoped) = ∅ := by decide
theorem scopedSems_eq : (Finset.univ.filter fun sm : SemLoc sig => sm.isScoped .tc) = ∅ := by decide

theorem ops_ok : (ops : List (HloOp τ sig (Elt F))).Forall fun op => op.bufs ⊆ tcRefs τ sig ∧ op.fresh = ∅ := by
  simp only [ops, List.forall_append]
  repeat' constructor
  all_goals simp only [nullary_bufs_sub, unary_bufs_sub, binary_bufs_sub, ternary_bufs_sub, nary_bufs_sub, reshape_bufs_sub]

theorem ops_sub : (ops : List (HloOp τ sig (Elt F))).Forall fun op => op.bufs ⊆ tcRefs τ sig := ops_ok.imp fun _ h => h.1

theorem ops_fresh : ∀ op ∈ (ops : List (HloOp τ sig (Elt F))), op.fresh = ∅ := fun op h =>
  (List.forall_iff_forall_mem.mp ops_ok op h).2

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RunP

end
-- ==== Proof.RCutLib.lean ====
import proofs.«424204_j12678743458345_1_alg».proof.Proof.ROps
import proofs.«424204_j12678743458345_1_alg».proof.Proof.Step

noncomputable section

namespace Cert.GNN.RSide

open Cert.ReferenceIdeal Cert.ReferenceIdeal.Gen Idealize.ShloMosaic Idealize.ShloMosaic.TcCoe Idealize.SL.Sem Idealize.ShloMosaic.StableHlo

variable {F : FTy → Type} [FloatOps F]

def slabF {A B C : Shape} (off : Fin A.rank → Nat) (hs : A.Slices off B) (hc : B.ShapeCasts C) (a : R.T F A) : R.T F C :=
  fun i => shapeCast C (extractStridedSlice B off a hs) hc i

theorem slab_eq {A B C : Shape} (off : Fin A.rank → Nat) (hs : A.Slices off B) (hc : B.ShapeCasts C) (a : R.T Ideal A) :
    R.slab off hs hc a = slabF off hs hc a := rfl

def msgsOf (wm : R.T F S70x32) (bm : R.T F S32) (xs xr : R.T F S3200000x34) (a3 : R.T F S3200000x2) (a4 : R.T F S3200000) :
    R.T F S3200000x32 :=
  mulf
    (maximumf
      (addf
        (Host.dotGeneral dot_S3200000x70_S70x32_S3200000x32_1_0_0_1_n_n none
          (concatenate S3200000x70 1 [⟨S3200000x34, xs⟩, ⟨S3200000x34, xr⟩, ⟨S3200000x2, a3⟩]
            concatenates_S3200000x34_S3200000x34_S3200000x2_S3200000x70_d1) wm)
        (broadcastInDim S3200000x32 ![0, 1] bcast_S1x32_S3200000x32_0_1 (broadcastInDim S1x32 ![1] bcast_S32_S1x32_1 bm)))
      (broadcastInDim S3200000x32 ![] bcast_S_S3200000x32 (constant S_ .f32 0x00000000#32)))
    (broadcastInDim S3200000x32 ![0, 1] bcast_S3200000x1_S3200000x32_0_1 (broadcastInDim S3200000x1 ![0] bcast_S3200000_S3200000x1_0 a4))

theorem msgs_eq (wm : R.T F S70x32) (bm : R.T F S32) (a1 a2 : R.I F S3200000) (a3 : R.T F S3200000x2) (a4 : R.T F S3200000)
    (x : R.T F S100000x34) : R.msgs wm bm a1 a2 a3 a4 x = msgsOf wm bm (R.gath x a1) (R.gath x a2) a3 a4 := rfl

theorem writes_sub {Wl : List (Ref sig .tc)} {y : Ref sig .tc} {op : HloOp τ sig (Elt F)}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

end Cert.GNN.RSide

end
-- ==== Proof.RChunks.lean ====
import proofs.«424204_j12678743458345_1_alg».proof.Proof.RCutLib

noncomputable section

namespace Cert.GNN.RSide

open Cert.ReferenceIdeal Cert.ReferenceIdeal.Gen Idealize.ShloMosaic Idealize.ShloMosaic.TcCoe Idealize.SL.Sem Idealize.ShloMosaic.StableHlo

variable {F : FTy → Type} [FloatOps F]

abbrev cS_W : List (Ref sig .tc) := [main_cst, main_v0, main_c, main_v1, main_cst_0, main_v2, main_v3, main_v4, main_v5, main_v6, main_v7, main_cst_1, main_v8]
theorem cS_writes : (cS : List (HloOp τ sig (Elt F))).Forall fun op => op.writes ⊆ (cS_W.map (Proc.devRef (τ := τ) .tc)).toFinset := by
  unfold cS; simp only [List.Forall]; repeat' constructor
  all_goals exact writes_sub rfl (by decide)
theorem cS_keep (W : Valuation τ sig (Elt F)) {r : Ref sig .tc} (h : r ∉ cS_W) :
    after cS W (no_index (Proc.devRef .tc r)) = W (Proc.devRef .tc r) :=
  after_of_writes_sub cS W cS_writes h

abbrev cA0_W : List (Ref sig .tc) := [main_v9, main_c_2, main_v10, main_v11, main_c_3, main_v12, main_v13, main_v14, main_v15, main_v16, main_c_4, main_v17, main_v18, main_c_5, main_v19, main_v20, main_v21, main_v22, main_v23]
theorem cA0_writes : (cA0 : List (HloOp τ sig (Elt F))).Forall fun op => op.writes ⊆ (cA0_W.map (Proc.devRef (τ := τ) .tc)).toFinset := by
  unfold cA0; simp only [List.Forall]; repeat' constructor
  all_goals exact writes_sub rfl (by decide)
theorem cA0_keep (W : Valuation τ sig (Elt F)) {r : Ref sig .tc} (h : r ∉ cA0_W) :
    after cA0 W (no_index (Proc.devRef .tc r)) = W (Proc.devRef .tc r) :=
  after_of_writes_sub cA0 W cA0_writes h

abbrev cM0_W : List (Ref sig .tc) := [main_v24, main_v25, main_v26, main_v27, main_v28, main_v29, main_v30, main_v31, main_v32, main_call0_cst, main_call0_v0, main_v33, main_v34, main_v35, main_v36]
theorem cM0_writes : (cM0 : List (HloOp τ sig (Elt F))).Forall fun op => op.writes ⊆ (cM0_W.map (Proc.devRef (τ := τ) .tc)).toFinset := by
  unfold cM0; simp only [List.Forall]; repeat' constructor
  all_goals exact writes_sub rfl (by decide)
theorem cM0_keep (W : Valuation τ sig (Elt F)) {r : Ref sig .tc} (h : r ∉ cM0_W) :
    after cM0 W (no_index (Proc.devRef .tc r)) = W (Proc.devRef .tc r) :=
  after_of_writes_sub cM0 W cM0_writes h

abbrev cB0_W : List (Ref sig .tc) := [main_cst_6, main_v37, main_v38, main_v39, main_v40, main_v41, main_v42, main_v43, main_v44, main_v45, main_v46, main_v47, main_v48, main_call1_cst, main_call1_v0, main_v49]
theorem cB0_writes : (cB0 : List (HloOp τ sig (Elt F))).Forall fun op => op.writes ⊆ (cB0_W.map (Proc.devRef (τ := τ) .tc)).toFinset := by
  unfold cB0; simp only [List.Forall]; repeat' constructor
  all_goals exact writes_sub rfl (by decide)
theorem cB0_keep (W : Valuation τ sig (Elt F)) {r : Ref sig .tc} (h : r ∉ cB0_W) :
    after cB0 W (no_index (Proc.devRef .tc r)) = W (Proc.devRef .tc r) :=
  after_of_writes_sub cB0 W cB0_writes h

abbrev cC0_W : List (Ref sig .tc) := [main_cst_7, main_v50, main_v51, main_cst_8, main_v52, main_v53, main_v54, main_v55, main_v56, main_v57, main_v58, main_v59, main_v60, main_v61, main_call2_cst, main_call2_v0, main_v62]
theorem cC0_writes : (cC0 : List (HloOp τ sig (Elt F))).Forall fun op => op.writes ⊆ (cC0_W.map (Proc.devRef (τ := τ) .tc)).toFinset := by
  unfold cC0; simp only [List.Forall]; repeat' constructor
  all_goals exact writes_sub rfl (by decide)
theorem cC0_keep (W : Valuation τ sig (Elt F)) {r : Ref sig .tc} (h : r ∉ cC0_W) :
    after cC0 W (no_index (Proc.devRef .tc r)) = W (Proc.devRef .tc r) :=
  after_of_writes_sub cC0 W cC0_writes h

abbrev cD0_W : List (Ref sig .tc) := [main_v63, main_v64, main_v65, main_v66, main_v67, main_v68, main_v69, main_v70, main_v71, main_v72, main_call3_cst, main_call3_v0, main_v73]
theorem cD0_writes : (cD0 : List (HloOp τ sig (Elt F))).Forall fun op => op.writes ⊆ (cD0_W.map (Proc.devRef (τ := τ) .tc)).toFinset := by
  unfold cD0; simp only [List.Forall]; repeat' constructor
  all_goals exact writes_sub rfl (by decide)
theorem cD0_keep (W : Valuation τ sig (Elt F)) {r : Ref sig .tc} (h : r ∉ cD0_W) :
    after cD0 W (no_index (Proc.devRef .tc r)) = W (Proc.devRef .tc r) :=
  after_of_writes_sub cD0 W cD0_writes h

abbrev cE0_W : List (Ref sig .tc) := [main_v74, main_v75, main_v76, main_v77, main_v78, main_v79, main_v80, main_v81, main_v82]
theorem cE0_writes : (cE0 : List (HloOp τ sig (Elt F))).Forall fun op => op.writes ⊆ (cE0_W.map (Proc.devRef (τ := τ) .tc)).toFinset := by
  unfold cE0; simp only [List.Forall]; repeat' constructor
  all_goals exact writes_sub rfl (by decide)
theorem cE0_keep (W : Valuation τ sig (Elt F)) {r : Ref sig .tc} (h : r ∉ cE0_W) :
    after cE0 W (no_index (Proc.devRef .tc r)) = W (Proc.devRef .tc r) :=
  after_of_writes_sub cE0 W cE0_writes h

abbrev cA1_W : List (Ref sig .tc) := [main_v83, main_c_9, main_v84, main_v85, main_c_10, main_v86, main_v87, main_v88, main_v89, main_v90, main_c_11, main_v91, main_v92, main_c_12, main_v93, main_v94, main_v95, main_v96, main_v97]
theorem cA1_writes : (cA1 : List (HloOp τ sig (Elt F))).Forall fun op => op.writes ⊆ (cA1_W.map (Proc.devRef (τ := τ) .tc)).toFinset := by
  unfold cA1; simp only [List.Forall]; repeat' constructor
  all_goals exact writes_sub rfl (by decide)
theorem cA1_keep (W : Valuation τ sig (Elt F)) {r : Ref sig .tc} (h : r ∉ cA1_W) :
    after cA1 W (no_index (Proc.devRef .tc r)) = W (Proc.devRef .tc r) :=
  after_of_writes_sub cA1 W cA1_writes h

abbrev cM1_W : List (Ref sig .tc) := [main_v98, main_v99, main_v100, main_v101, main_v102, main_v103, main_v104, main_v105, main_v106, main_call4_cst, main_call4_v0, main_v107, main_v108, main_v109, main_v110]
theorem cM1_writes : (cM1 : List (HloOp τ sig (Elt F))).Forall fun op => op.writes ⊆ (cM1_W.map (Proc.devRef (τ := τ) .tc)).toFinset := by
  unfold cM1; simp only [List.Forall]; repeat' constructor
  all_goals exact writes_sub rfl (by decide)
theorem cM1_keep (W : Valuation τ sig (Elt F)) {r : Ref sig .tc} (h : r ∉ cM1_W) :
    after cM1 W (no_index (Proc.devRef .tc r)) = W (Proc.devRef .tc r) :=
  after_of_writes_sub cM1 W cM1_writes h

abbrev cB1_W : List (Ref sig .tc) := [main_cst_13, main_v111, main_v112, main_v113, main_v114, main_v115, main_v116, main_v117, main_v118, main_v119, main_v120, main_v121, main_v122, main_call5_cst, main_call5_v0, main_v123]
theorem cB1_writes : (cB1 : List (HloOp τ sig (Elt F))).Forall fun op => op.writes ⊆ (cB1_W.map (Proc.devRef (τ := τ) .tc)).toFinset := by
  unfold cB1; simp only [List.Forall]; repeat' constructor
  all_goals exact writes_sub rfl (by decide)
theorem cB1_keep (W : Valuation τ sig (Elt F)) {r : Ref sig .tc} (h : r ∉ cB1_W) :
    after cB1 W (no_index (Proc.devRef .tc r)) = W (Proc.devRef .tc r) :=
  after_of_writes_sub cB1 W cB1_writes h

abbrev cC1_W : List (Ref sig .tc) := [main_cst_14, main_v124, main_v125, main_cst_15, main_v126, main_v127, main_v128, main_v129, main_v130, main_v131, main_v132, main_v133, main_v134, main_v135, main_call6_cst, main_call6_v0, main_v136]
theorem cC1_writes : (cC1 : List (HloOp τ sig (Elt F))).Forall fun op => op.writes ⊆ (cC1_W.map (Proc.devRef (τ := τ) .tc)).toFinset := by
  unfold cC1; simp only [List.Forall]; repeat' constructor
  all_goals exact writes_sub rfl (by decide)
theorem cC1_keep (W : Valuation τ sig (Elt F)) {r : Ref sig .tc} (h : r ∉ cC1_W) :
    after cC1 W (no_index (Proc.devRef .tc r)) = W (Proc.devRef .tc r) :=
  after_of_writes_sub cC1 W cC1_writes h

abbrev cD1_W : List (Ref sig .tc) := [main_v137, main_v138, main_v139, main_v140, main_v141, main_v142, main_v143, main_v144, main_v145, main_v146, main_call7_cst, main_call7_v0, main_v147]
theorem cD1_writes : (cD1 : List (HloOp τ sig (Elt F))).Forall fun op => op.writes ⊆ (cD1_W.map (Proc.devRef (τ := τ) .tc)).toFinset := by
  unfold cD1; simp only [List.Forall]; repeat' constructor
  all_goals exact writes_sub rfl (by decide)
theorem cD1_keep (W : Valuation τ sig (Elt F)) {r : Ref sig .tc} (h : r ∉ cD1_W) :
    after cD1 W (no_index (Proc.devRef .tc r)) = W (Proc.devRef .tc r) :=
  after_of_writes_sub cD1 W cD1_writes h

abbrev cE1_W : List (Ref sig .tc) := [main_v148, main_v149, main_v150, main_v151, main_v152, main_v153, main_v154, main_v155, main_v156]
theorem cE1_writes : (cE1 : List (HloOp τ sig (Elt F))).Forall fun op => op.writes ⊆ (cE1_W.map (Proc.devRef (τ := τ) .tc)).toFinset := by
  unfold cE1; simp only [List.Forall]; repeat' constructor
  all_goals exact writes_sub rfl (by decide)
theorem cE1_keep (W : Valuation τ sig (Elt F)) {r : Ref sig .tc} (h : r ∉ cE1_W) :
    after cE1 W (no_index (Proc.devRef .tc r)) = W (Proc.devRef .tc r) :=
  after_of_writes_sub cE1 W cE1_writes h

abbrev cA2_W : List (Ref sig .tc) := [main_v157, main_c_16, main_v158, main_v159, main_c_17, main_v160, main_v161, main_v162, main_v163, main_v164, main_c_18, main_v165, main_v166, main_c_19, main_v167, main_v168, main_v169, main_v170, main_v171]
theorem cA2_writes : (cA2 : List (HloOp τ sig (Elt F))).Forall fun op => op.writes ⊆ (cA2_W.map (Proc.devRef (τ := τ) .tc)).toFinset := by
  unfold cA2; simp only [List.Forall]; repeat' constructor
  all_goals exact writes_sub rfl (by decide)
theorem cA2_keep (W : Valuation τ sig (Elt F)) {r : Ref sig .tc} (h : r ∉ cA2_W) :
    after cA2 W (no_index (Proc.devRef .tc r)) = W (Proc.devRef .tc r) :=
  after_of_writes_sub cA2 W cA2_writes h

abbrev cM2_W : List (Ref sig .tc) := [main_v172, main_v173, main_v174, main_v175, main_v176, main_v177, main_v178, main_v179, main_v180, main_call8_cst, main_call8_v0, main_v181, main_v182, main_v183, main_v184]
theorem cM2_writes : (cM2 : List (HloOp τ sig (Elt F))).Forall fun op => op.writes ⊆ (cM2_W.map (Proc.devRef (τ := τ) .tc)).toFinset := by
  unfold cM2; simp only [List.Forall]; repeat' constructor
  all_goals exact writes_sub rfl (by decide)
theorem cM2_keep (W : Valuation τ sig (Elt F)) {r : Ref sig .tc} (h : r ∉ cM2_W) :
    after cM2 W (no_index (Proc.devRef .tc r)) = W (Proc.devRef .tc r) :=
  after_of_writes_sub cM2 W cM2_writes h

abbrev cB2_W : List (Ref sig .tc) := [main_cst_20, main_v185, main_v186, main_v187, main_v188, main_v189, main_v190, main_v191, main_v192, main_v193, main_v194, main_v195, main_v196, main_call9_cst, main_call9_v0, main_v197]
theorem cB2_writes : (cB2 : List (HloOp τ sig (Elt F))).Forall fun op => op.writes ⊆ (cB2_W.map (Proc.devRef (τ := τ) .tc)).toFinset := by
  unfold cB2; simp only [List.Forall]; repeat' constructor
  all_goals exact writes_sub rfl (by decide)
theorem cB2_keep (W : Valuation τ sig (Elt F)) {r : Ref sig .tc} (h : r ∉ cB2_W) :
    after cB2 W (no_index (Proc.devRef .tc r)) = W (Proc.devRef .tc r) :=
  after_of_writes_sub cB2 W cB2_writes h

abbrev cC2_W : List (Ref sig .tc) := [main_cst_21, main_v198, main_v199, main_cst_22, main_v200, main_v201, main_v202, main_v203, main_v204, main_v205, main_v206, main_v207, main_v208, main_v209, main_call10_cst, main_call10_v0, main_v210]
theorem cC2_writes : (cC2 : List (HloOp τ sig (Elt F))).Forall fun op => op.writes ⊆ (cC2_W.map (Proc.devRef (τ := τ) .tc)).toFinset := by
  unfold cC2; simp only [List.Forall]; repeat' constructor
  all_goals exact writes_sub rfl (by decide)
theorem cC2_keep (W : Valuation τ sig (Elt F)) {r : Ref sig .tc} (h : r ∉ cC2_W) :
    after cC2 W (no_index (Proc.devRef .tc r)) = W (Proc.devRef .tc r) :=
  after_of_writes_sub cC2 W cC2_writes h

abbrev cD2_W : List (Ref sig .tc) := [main_v211, main_v212, main_v213, main_v214, main_v215, main_v216, main_v217, main_v218, main_v219, main_v220, main_call11_cst, main_call11_v0, main_v221]
theorem cD2_writes : (cD2 : List (HloOp τ sig (Elt F))).Forall fun op => op.writes ⊆ (cD2_W.map (Proc.devRef (τ := τ) .tc)).toFinset := by
  unfold cD2; simp only [List.Forall]; repeat' constructor
  all_goals exact writes_sub rfl (by decide)
theorem cD2_keep (W : Valuation τ sig (Elt F)) {r : Ref sig .tc} (h : r ∉ cD2_W) :
    after cD2 W (no_index (Proc.devRef .tc r)) = W (Proc.devRef .tc r) :=
  after_of_writes_sub cD2 W cD2_writes h

abbrev cE2_W : List (Ref sig .tc) := [main_v222, main_v223, main_v224, main_v225, main_v226, main_v227, main_v228, main_v229, main_v230]
theorem cE2_writes : (cE2 : List (HloOp τ sig (Elt F))).Forall fun op => op.writes ⊆ (cE2_W.map (Proc.devRef (τ := τ) .tc)).toFinset := by
  unfold cE2; simp only [List.Forall]; repeat' constructor
  all_goals exact writes_sub rfl (by decide)
theorem cE2_keep (W : Valuation τ sig (Elt F)) {r : Ref sig .tc} (h : r ∉ cE2_W) :
    after cE2 W (no_index (Proc.devRef .tc r)) = W (Proc.devRef .tc r) :=
  after_of_writes_sub cE2 W cE2_writes h

end Cert.GNN.RSide

end
-- ==== Proof.RStart.lean ====
import proofs.«424204_j12678743458345_1_alg».proof.Proof.RChunks

noncomputable section

namespace Cert.GNN.RSide

open Cert.ReferenceIdeal Cert.ReferenceIdeal.Gen Idealize.ShloMosaic Idealize.ShloMosaic.TcCoe Idealize.SL.Sem Idealize.ShloMosaic.StableHlo

variable (W : Valuation τ sig (Elt Ideal))

/-- The layer weights that `mk` cuts out of the stacked weight arguments in `W`. -/
def lw (mk : R.T Ideal S3x70x32 → R.T Ideal S3x32 → R.T Ideal S3x66x32 → R.T Ideal S3x32 → R.T Ideal S3x64x32 → R.T Ideal S3x32 →
    R.T Ideal S3x64x32 → R.T Ideal S3x32 → R.T Ideal S3x32x2 → R.T Ideal S3x2 → R.LayerW) : R.LayerW :=
  mk (W main_arg7) (W main_arg8) (W main_arg9) (W main_arg10) (W main_arg11) (W main_arg12) (W main_arg13) (W main_arg14)
    (W main_arg15) (W main_arg16)

/-- One layer with weights `P` on the graph arguments in `W`. -/
def stp (P : R.LayerW) (s : R.State) : R.State := R.step P (W main_arg1) (W main_arg2) (W main_arg3) (W main_arg4) s

theorem cS_state :
    (⟨after cS W main_v3, after cS W main_v7, after cS W main_v8⟩ : R.State)
      = R.init (W main_arg0) (W main_arg5) (W main_arg6) := by
  unfold cS; after_results_simp; rfl

end Cert.GNN.RSide

end
-- ==== Proof.RLayer0.lean ====
import proofs.«424204_j12678743458345_1_alg».proof.Proof.RStart

noncomputable section

namespace Cert.GNN.RSide

open Cert.ReferenceIdeal Cert.ReferenceIdeal.Gen Idealize.ShloMosaic Idealize.ShloMosaic.TcCoe Idealize.SL.Sem Idealize.ShloMosaic.StableHlo

section
variable {F : FTy → Type} [FloatOps F]

def L0 : List (HloOp τ sig (Elt F)) := cA0 ++ (cM0 ++ (cB0 ++ (cC0 ++ (cD0 ++ cE0))))

abbrev L0_W : List (Ref sig .tc) := cA0_W ++ (cM0_W ++ (cB0_W ++ (cC0_W ++ (cD0_W ++ cE0_W))))

theorem L0_keep (W : Valuation τ sig (Elt F)) {r : Ref sig .tc} (h : r ∉ L0_W) :
    after L0 W (no_index (Proc.devRef .tc r)) = W (Proc.devRef .tc r) := by
  simp only [L0_W, List.mem_append, not_or] at h
  obtain ⟨hA, hM, hB, hC, hD, hE⟩ := h
  simp only [L0, RunP.after_append, cE0_keep _ hE, cD0_keep _ hD, cC0_keep _ hC, cB0_keep _ hB, cM0_keep _ hM, cA0_keep _ hA]

end

variable (W : Valuation τ sig (Elt Ideal))

theorem cA0_x : after cA0 W (no_index (Proc.devRef .tc main_v9)) = R.catX (W main_v3) (W main_v7) := by
  unfold cA0; after_results_simp; rfl

theorem cA0_xs : after cA0 W (no_index (Proc.devRef .tc main_v16)) = R.gath (R.catX (W main_v3) (W main_v7)) (W main_arg1) := by
  unfold cA0; after_results_simp; rfl

theorem cA0_xr : after cA0 W (no_index (Proc.devRef .tc main_v23)) = R.gath (R.catX (W main_v3) (W main_v7)) (W main_arg2) := by
  unfold cA0; after_results_simp; rfl

theorem cM0_m :
    after cM0 W (no_index (Proc.devRef .tc main_v36)) = msgsOf (lw W R.layerW0).wm (lw W R.layerW0).bm (W main_v16) (W main_v23) (W main_arg3) (W main_arg4) := by
  unfold cM0; after_results_simp; rfl

theorem cB0_h1 :
    after cB0 W (no_index (Proc.devRef .tc main_v49)) = R.h1Of (lw W R.layerW0).wn (lw W R.layerW0).bn (W main_v9) (R.aggOf (W main_arg2) (W main_v36)) := by
  unfold cB0; after_results_simp; rfl

theorem cC0_g : after cC0 W (no_index (Proc.devRef .tc main_v62)) = R.gNext (W main_v8) (W main_v49) (lw W R.layerW0).wg (lw W R.layerW0).bg := by
  unfold cC0; after_results_simp; rfl

theorem cD0_h : after cD0 W (no_index (Proc.devRef .tc main_v73)) = R.hNext (W main_v49) (W main_v62) (lw W R.layerW0).wgn (lw W R.layerW0).bgn := by
  unfold cD0; after_results_simp; rfl

theorem cE0_v : after cE0 W (no_index (Proc.devRef .tc main_v82)) = R.vNext (W main_v3) (W main_v73) (lw W R.layerW0).wdv (lw W R.layerW0).bdv := by
  unfold cE0; after_results_simp; rfl

/-- The three state buffers after the layer hold the layer's step of the three before it. -/
theorem L0_state :
    (⟨after L0 W main_v82, after L0 W main_v73, after L0 W main_v62⟩ : R.State)
      = stp W (lw W R.layerW0) ⟨W main_v3, W main_v7, W main_v8⟩ := by
  simp only [L0, RunP.after_append]
  simp (disch := decide) only [lw, cE0_v, cE0_keep, cD0_h, cD0_keep, cC0_g, cC0_keep, cB0_h1, cB0_keep, cM0_m, cM0_keep,
    cA0_x, cA0_xs, cA0_xr, cA0_keep]
  rfl

end Cert.GNN.RSide

end
-- ==== Proof.RLayer1.lean ====
import proofs.«424204_j12678743458345_1_alg».proof.Proof.RStart

noncomputable section

namespace Cert.GNN.RSide

open Cert.ReferenceIdeal Cert.ReferenceIdeal.Gen Idealize.ShloMosaic Idealize.ShloMosaic.TcCoe Idealize.SL.Sem Idealize.ShloMosaic.StableHlo

section
variable {F : FTy → Type} [FloatOps F]

def L1 : List (HloOp τ sig (Elt F)) := cA1 ++ (cM1 ++ (cB1 ++ (cC1 ++ (cD1 ++ cE1))))

abbrev L1_W : List (Ref sig .tc) := cA1_W ++ (cM1_W ++ (cB1_W ++ (cC1_W ++ (cD1_W ++ cE1_W))))

theorem L1_keep (W : Valuation τ sig (Elt F)) {r : Ref sig .tc} (h : r ∉ L1_W) :
    after L1 W (no_index (Proc.devRef .tc r)) = W (Proc.devRef .tc r) := by
  simp only [L1_W, List.mem_append, not_or] at h
  obtain ⟨hA, hM, hB, hC, hD, hE⟩ := h
  simp only [L1, RunP.after_append, cE1_keep _ hE, cD1_keep _ hD, cC1_keep _ hC, cB1_keep _ hB, cM1_keep _ hM, cA1_keep _ hA]

end

variable (W : Valuation τ sig (Elt Ideal))

theorem cA1_x : after cA1 W (no_index (Proc.devRef .tc main_v83)) = R.catX (W main_v82) (W main_v73) := by
  unfold cA1; after_results_simp; rfl

theorem cA1_xs : after cA1 W (no_index (Proc.devRef .tc main_v90)) = R.gath (R.catX (W main_v82) (W main_v73)) (W main_arg1) := by
  unfold cA1; after_results_simp; rfl

theorem cA1_xr : after cA1 W (no_index (Proc.devRef .tc main_v97)) = R.gath (R.catX (W main_v82) (W main_v73)) (W main_arg2) := by
  unfold cA1; after_results_simp; rfl

theorem cM1_m :
    after cM1 W (no_index (Proc.devRef .tc main_v110)) = msgsOf (lw W R.layerW1).wm (lw W R.layerW1).bm (W main_v90) (W main_v97) (W main_arg3) (W main_arg4) := by
  unfold cM1; after_results_simp; rfl

theorem cB1_h1 :
    after cB1 W (no_index (Proc.devRef .tc main_v123)) = R.h1Of (lw W R.layerW1).wn (lw W R.layerW1).bn (W main_v83) (R.aggOf (W main_arg2) (W main_v110)) := by
  unfold cB1; after_results_simp; rfl

theorem cC1_g : after cC1 W (no_index (Proc.devRef .tc main_v136)) = R.gNext (W main_v62) (W main_v123) (lw W R.layerW1).wg (lw W R.layerW1).bg := by
  unfold cC1; after_results_simp; rfl

theorem cD1_h : after cD1 W (no_index (Proc.devRef .tc main_v147)) = R.hNext (W main_v123) (W main_v136) (lw W R.layerW1).wgn (lw W R.layerW1).bgn := by
  unfold cD1; after_results_simp; rfl

theorem cE1_v : after cE1 W (no_index (Proc.devRef .tc main_v156)) = R.vNext (W main_v82) (W main_v147) (lw W R.layerW1).wdv (lw W R.layerW1).bdv := by
  unfold cE1; after_results_simp; rfl

/-- The three state buffers after the layer hold the layer's step of the three before it. -/
theorem L1_state :
    (⟨after L1 W main_v156, after L1 W main_v147, after L1 W main_v136⟩ : R.State)
      = stp W (lw W R.layerW1) ⟨W main_v82, W main_v73, W main_v62⟩ := by
  simp only [L1, RunP.after_append]
  simp (disch := decide) only [lw, cE1_v, cE1_keep, cD1_h, cD1_keep, cC1_g, cC1_keep, cB1_h1, cB1_keep, cM1_m, cM1_keep,
    cA1_x, cA1_xs, cA1_xr, cA1_keep]
  rfl

end Cert.GNN.RSide

end
-- ==== Proof.RLayer2.lean ====
import proofs.«424204_j12678743458345_1_alg».proof.Proof.RStart

noncomputable section

namespace Cert.GNN.RSide

open Cert.ReferenceIdeal Cert.ReferenceIdeal.Gen Idealize.ShloMosaic Idealize.ShloMosaic.TcCoe Idealize.SL.Sem Idealize.ShloMosaic.StableHlo

section
variable {F : FTy → Type} [FloatOps F]

def L2 : List (HloOp τ sig (Elt F)) := cA2 ++ (cM2 ++ (cB2 ++ (cC2 ++ (cD2 ++ cE2))))

abbrev L2_W : List (Ref sig .tc) := cA2_W ++ (cM2_W ++ (cB2_W ++ (cC2_W ++ (cD2_W ++ cE2_W))))

theorem L2_keep (W : Valuation τ sig (Elt F)) {r : Ref sig .tc} (h : r ∉ L2_W) :
    after L2 W (no_index (Proc.devRef .tc r)) = W (Proc.devRef .tc r) := by
  simp only [L2_W, List.mem_append, not_or] at h
  obtain ⟨hA, hM, hB, hC, hD, hE⟩ := h
  simp only [L2, RunP.after_append, cE2_keep _ hE, cD2_keep _ hD, cC2_keep _ hC, cB2_keep _ hB, cM2_keep _ hM, cA2_keep _ hA]

end

variable (W : Valuation τ sig (Elt Ideal))

theorem cA2_x : after cA2 W (no_index (Proc.devRef .tc main_v157)) = R.catX (W main_v156) (W main_v147) := by
  unfold cA2; after_results_simp; rfl

theorem cA2_xs : after cA2 W (no_index (Proc.devRef .tc main_v164)) = R.gath (R.catX (W main_v156) (W main_v147)) (W main_arg1) := by
  unfold cA2; after_results_simp; rfl

theorem cA2_xr : after cA2 W (no_index (Proc.devRef .tc main_v171)) = R.gath (R.catX (W main_v156) (W main_v147)) (W main_arg2) := by
  unfold cA2; after_results_simp; rfl

theorem cM2_m :
    after cM2 W (no_index (Proc.devRef .tc main_v184)) = msgsOf (lw W R.layerW2).wm (lw W R.layerW2).bm (W main_v164) (W main_v171) (W main_arg3) (W main_arg4) := by
  unfold cM2; after_results_simp; rfl

theorem cB2_h1 :
    after cB2 W (no_index (Proc.devRef .tc main_v197)) = R.h1Of (lw W R.layerW2).wn (lw W R.layerW2).bn (W main_v157) (R.aggOf (W main_arg2) (W main_v184)) := by
  unfold cB2; after_results_simp; rfl

theorem cC2_g : after cC2 W (no_index (Proc.devRef .tc main_v210)) = R.gNext (W main_v136) (W main_v197) (lw W R.layerW2).wg (lw W R.layerW2).bg := by
  unfold cC2; after_results_simp; rfl

theorem cD2_h : after cD2 W (no_index (Proc.devRef .tc main_v221)) = R.hNext (W main_v197) (W main_v210) (lw W R.layerW2).wgn (lw W R.layerW2).bgn := by
  unfold cD2; after_results_simp; rfl

theorem cE2_v : after cE2 W (no_index (Proc.devRef .tc main_v230)) = R.vNext (W main_v156) (W main_v221) (lw W R.layerW2).wdv (lw W R.layerW2).bdv := by
  unfold cE2; after_results_simp; rfl

/-- The three state buffers after the layer hold the layer's step of the three before it. -/
theorem L2_state :
    (⟨after L2 W main_v230, after L2 W main_v221, after L2 W main_v210⟩ : R.State)
      = stp W (lw W R.layerW2) ⟨W main_v156, W main_v147, W main_v136⟩ := by
  simp only [L2, RunP.after_append]
  simp (disch := decide) only [lw, cE2_v, cE2_keep, cD2_h, cD2_keep, cC2_g, cC2_keep, cB2_h1, cB2_keep, cM2_m, cM2_keep,
    cA2_x, cA2_xs, cA2_xr, cA2_keep]
  rfl

end Cert.GNN.RSide

end
-- ==== Proof.RValue.lean ====
import proofs.«424204_j12678743458345_1_alg».proof.Proof.RLayer0
import proofs.«424204_j12678743458345_1_alg».proof.Proof.RLayer1
import proofs.«424204_j12678743458345_1_alg».proof.Proof.RLayer2

noncomputable section

namespace Cert.GNN.RSide

open Cert.ReferenceIdeal Cert.ReferenceIdeal.Gen Idealize.ShloMosaic Idealize.ShloMosaic.TcCoe Idealize.SL.Sem Idealize.ShloMosaic.StableHlo

theorem ops_cut {F : FTy → Type} [FloatOps F] : (RunP.ops : List (HloOp τ sig (Elt F))) = cS ++ (L0 ++ (L1 ++ L2)) := rfl

/-- The run is the first stretch and three layers; every layer reads the arguments, which no operation writes. -/
theorem result_eq (m : (ℓ : Loc nD τ sig) → Buf (Elt Ideal) ℓ) (c : Dev nD) :
    after (RunP.ops (F := Ideal)) (launchContents m c) (Proc.devRef .tc main_v230)
      = (R.step (R.layerW2 (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
            (m ((c.tc : Thread nD τ).loc main_arg1)) (m ((c.tc : Thread nD τ).loc main_arg2)) (m ((c.tc : Thread nD τ).loc main_arg3)) (m ((c.tc : Thread nD τ).loc main_arg4))
          (R.step (R.layerW1 (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
              (m ((c.tc : Thread nD τ).loc main_arg1)) (m ((c.tc : Thread nD τ).loc main_arg2)) (m ((c.tc : Thread nD τ).loc main_arg3)) (m ((c.tc : Thread nD τ).loc main_arg4))
            (R.step (R.layerW0 (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
                (m ((c.tc : Thread nD τ).loc main_arg1)) (m ((c.tc : Thread nD τ).loc main_arg2)) (m ((c.tc : Thread nD τ).loc main_arg3)) (m ((c.tc : Thread nD τ).loc main_arg4))
              (R.init (m ((c.tc : Thread nD τ).loc main_arg0)) (m ((c.tc : Thread nD τ).loc main_arg5)) (m ((c.tc : Thread nD τ).loc main_arg6)))))).v := by
  rw [ops_cut, RunP.after_append, RunP.after_append, RunP.after_append]
  refine (congrArg R.State.v (L2_state _)).trans ?_
  rw [L1_state, L0_state, cS_state]
  simp (disch := decide) only [stp, lw, L1_keep, L0_keep, cS_keep]

end Cert.GNN.RSide

end
-- ==== Proof.RRun.lean ====
import proofs.«424204_j12678743458345_1_alg».proof.Proof.RValue

noncomputable section

namespace Cert.ReferenceIdeal.RunP

open Cert.ReferenceIdeal Cert.ReferenceIdeal.Gen Idealize.ShloMosaic Idealize.ShloMosaic.TcCoe Idealize.SL.Sem Idealize.ShloMosaic.StableHlo Cert.GNN.RSide

variable {F : FTy → Type} [FloatOps F]

theorem after_ops_keep (V : Valuation τ sig (Elt F)) {r : Ref sig .tc} (h : r ∉ cS_W ++ (L0_W ++ (L1_W ++ L2_W))) :
    after (ops (F := F)) V (Proc.devRef .tc r) = V (Proc.devRef .tc r) := by
  rw [ops_cut, after_append, after_append, after_append,
    L2_keep _ fun hm => h (List.mem_append_right _ (List.mem_append_right _ (List.mem_append_right _ hm))),
    L1_keep _ fun hm => h (List.mem_append_right _ (List.mem_append_right _ (List.mem_append_left _ hm))),
    L0_keep _ fun hm => h (List.mem_append_right _ (List.mem_append_left _ hm)),
    cS_keep _ fun hm => h (List.mem_append_left _ hm)]

theorem run_fold (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v230) = after (ops (F := F)) (launchContents m c) (Proc.devRef .tc main_v230)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v230,
      (h c main_arg0).trans (after_ops_keep _ (by decide)),
      (h c main_arg1).trans (after_ops_keep _ (by decide)),
      (h c main_arg2).trans (after_ops_keep _ (by decide)),
      (h c main_arg3).trans (after_ops_keep _ (by decide)),
      (h c main_arg4).trans (after_ops_keep _ (by decide)),
      (h c main_arg5).trans (after_ops_keep _ (by decide)),
      (h c main_arg6).trans (after_ops_keep _ (by decide)),
      (h c main_arg7).trans (after_ops_keep _ (by decide)),
      (h c main_arg8).trans (after_ops_keep _ (by decide)),
      (h c main_arg9).trans (after_ops_keep _ (by decide)),
      (h c main_arg10).trans (after_ops_keep _ (by decide)),
      (h c main_arg11).trans (after_ops_keep _ (by decide)),
      (h c main_arg12).trans (after_ops_keep _ (by decide)),
      (h c main_arg13).trans (after_ops_keep _ (by decide)),
      (h c main_arg14).trans (after_ops_keep _ (by decide)),
      (h c main_arg15).trans (after_ops_keep _ (by decide)),
      (h c main_arg16).trans (after_ops_keep _ (by decide))⟩)
    (run_seq scopedRefs_eq scopedSems_eq defs main (fun _ => ops) main_eq (fun _ => ops_sub) m ρ (fun _ => ops_fresh))

end Cert.ReferenceIdeal.RunP

end
-- ==== Proof.BridgeLib.lean ====
import Idealize.ShloMosaic.Lib.StackMember
import Idealize.ShloMosaic.Lib.ValueLayout

open scoped BigOperators

namespace Cert.GNN.Bridge
open Idealize.ShloMosaic Idealize.ShloMosaic.ValueIdx

variable {A B C l m n : Nat} {α : Type}

theorem ext2 {f g : (⟨2, ![A, B]⟩ : Shape).Idx → α} (h : ∀ p q, f (ix2 p q) = g (ix2 p q)) : f = g :=
  funext fun i => eq_ix2 i ▸ h (i 0) (i 1)

/-- A product that contracts the columns of the left operand with the rows of the right, at (p, q): Σ_k X[p,k]·Y[k,q]. -/
theorem dot_at (d : DotDims ⟨2, ![A, C]⟩ ⟨2, ![C, B]⟩ ⟨2, ![A, B]⟩) (hd : d = .plain A C B)
    (X : FVec Ideal ⟨2, ![A, C]⟩ .f32) (Y : FVec Ideal ⟨2, ![C, B]⟩ .f32) (p : Fin A) (q : Fin B) :
    Host.dotGeneral d none X Y (ix2 p q) = ∑ k : Fin C, X (ix2 p k) * Y (ix2 k q) :=
  hd ▸ StackMember.dotGeneral_plain_apply none X Y p q

/-- Piece k of a concatenation along the columns starts at column `pre`; against W it meets the rows of W from `pre` on. -/
theorem piece_at (xs : List ((s : Shape) × (s.Idx → EReal))) (hc : Shape.Concatenates (xs.map (·.1)) ⟨2, ![A, C]⟩ 1)
    (k : Nat) (x : (⟨2, ![A, m]⟩ : Shape).Idx → EReal) (hx : xs[k]? = some ⟨_, x⟩) (pre : Nat)
    (hpre : (((xs.take k).map (·.1)).map fun s => if h : s.rank = 2 then s.size ((1 : Fin 2).cast h.symm) else 0).sum = pre)
    (hs : (⟨2, ![C, B]⟩ : Shape).Slices ![pre, 0] ⟨2, ![m, B]⟩) (W : (⟨2, ![C, B]⟩ : Shape).Idx → EReal)
    (p : Fin A) (q : Fin B) (c : Fin m) (c' : Fin C) (hc' : c'.val = pre + c.val) :
    concatenate ⟨2, ![A, C]⟩ 1 xs hc (ix2 p c') * W (ix2 c' q)
      = x (ix2 p c) * extractStridedSlice ⟨2, ![m, B]⟩ ![pre, 0] W hs (ix2 c q) := by
  obtain ⟨hk, hx⟩ := List.getElem?_eq_some_iff.1 hx
  rw [slice2_axis0_apply pre W hs c q c' hc', concatenate_apply_piece 1 xs hc (ix2 p c') k hk _ x hx rfl pre hpre (ix2 p c)
    (fun b hb => by
      match b with
      | ⟨0, _⟩ => rfl
      | ⟨1, _⟩ => exact absurd rfl hb) hc'.symm]

/-- The product of [a | b] with W is the product of a with the first m rows of W plus that of b with the other n. -/
theorem dot_cat2 (d : DotDims ⟨2, ![A, m + n]⟩ ⟨2, ![m + n, B]⟩ ⟨2, ![A, B]⟩) (hd : d = .plain A (m + n) B)
    (hc : Shape.Concatenates [⟨2, ![A, m]⟩, ⟨2, ![A, n]⟩] ⟨2, ![A, m + n]⟩ 1)
    (h0 : (⟨2, ![m + n, B]⟩ : Shape).Slices ![0, 0] ⟨2, ![m, B]⟩) (h1 : (⟨2, ![m + n, B]⟩ : Shape).Slices ![m, 0] ⟨2, ![n, B]⟩)
    (a : FVec Ideal ⟨2, ![A, m]⟩ .f32) (b : FVec Ideal ⟨2, ![A, n]⟩ .f32) (W : FVec Ideal ⟨2, ![m + n, B]⟩ .f32) (p : Fin A) (q : Fin B) :
    Host.dotGeneral d none (concatenate ⟨2, ![A, m + n]⟩ 1 [⟨_, a⟩, ⟨_, b⟩] hc) W (ix2 p q)
      = ∑ k : Fin m, a (ix2 p k) * extractStridedSlice ⟨2, ![m, B]⟩ ![0, 0] W h0 (ix2 k q)
        + ∑ k : Fin n, b (ix2 p k) * extractStridedSlice ⟨2, ![n, B]⟩ ![m, 0] W h1 (ix2 k q) := by
  rw [dot_at d hd, Fin.sum_univ_add]
  exact congrArg₂ _ (Finset.sum_congr rfl fun k _ => piece_at [⟨_, a⟩, ⟨_, b⟩] hc 0 a rfl 0 rfl h0 W p q k _ (Nat.zero_add _).symm)
    (Finset.sum_congr rfl fun k _ => piece_at [⟨_, a⟩, ⟨_, b⟩] hc 1 b rfl m rfl h1 W p q k _ rfl)

/-- The same for three pieces [a | b | c]. -/
theorem dot_cat3 (d : DotDims ⟨2, ![A, l + m + n]⟩ ⟨2, ![l + m + n, B]⟩ ⟨2, ![A, B]⟩) (hd : d = .plain A (l + m + n) B)
    (hc : Shape.Concatenates [⟨2, ![A, l]⟩, ⟨2, ![A, m]⟩, ⟨2, ![A, n]⟩] ⟨2, ![A, l + m + n]⟩ 1)
    (h0 : (⟨2, ![l + m + n, B]⟩ : Shape).Slices ![0, 0] ⟨2, ![l, B]⟩) (h1 : (⟨2, ![l + m + n, B]⟩ : Shape).Slices ![l, 0] ⟨2, ![m, B]⟩)
    (h2 : (⟨2, ![l + m + n, B]⟩ : Shape).Slices ![l + m, 0] ⟨2, ![n, B]⟩)
    (a : FVec Ideal ⟨2, ![A, l]⟩ .f32) (b : FVec Ideal ⟨2, ![A, m]⟩ .f32) (c : FVec Ideal ⟨2, ![A, n]⟩ .f32)
    (W : FVec Ideal ⟨2, ![l + m + n, B]⟩ .f32) (p : Fin A) (q : Fin B) :
    Host.dotGeneral d none (concatenate ⟨2, ![A, l + m + n]⟩ 1 [⟨_, a⟩, ⟨_, b⟩, ⟨_, c⟩] hc) W (ix2 p q)
      = ∑ k : Fin l, a (ix2 p k) * extractStridedSlice ⟨2, ![l, B]⟩ ![0, 0] W h0 (ix2 k q)
        + ∑ k : Fin m, b (ix2 p k) * extractStridedSlice ⟨2, ![m, B]⟩ ![l, 0] W h1 (ix2 k q)
        + ∑ k : Fin n, c (ix2 p k) * extractStridedSlice ⟨2, ![n, B]⟩ ![l + m, 0] W h2 (ix2 k q) := by
  rw [dot_at d hd, Fin.sum_univ_add, Fin.sum_univ_add]
  exact congrArg₂ _ (congrArg₂ _
      (Finset.sum_congr rfl fun k _ => piece_at [⟨_, a⟩, ⟨_, b⟩, ⟨_, c⟩] hc 0 a rfl 0 rfl h0 W p q k _ (Nat.zero_add _).symm)
      (Finset.sum_congr rfl fun k _ => piece_at [⟨_, a⟩, ⟨_, b⟩, ⟨_, c⟩] hc 1 b rfl l rfl h1 W p q k _ rfl))
    (Finset.sum_congr rfl fun k _ => piece_at [⟨_, a⟩, ⟨_, b⟩, ⟨_, c⟩] hc 2 c rfl (l + m) rfl h2 W p q k _ rfl)

/-- A row broadcast over A rows reads the row. -/
theorem rows_at (h : (⟨2, ![1, B]⟩ : Shape).BroadcastsInDim ⟨2, ![A, B]⟩ ![0, 1])
    (g : (⟨2, ![1, B]⟩ : Shape).Idx → α) (p : Fin A) (q : Fin B) :
    broadcastInDim ⟨2, ![A, B]⟩ ![0, 1] h g (ix2 p q) = g (ix2 0 q) :=
  broadcastInDim_apply _ h g _ (ix2 0 q) fun c => by
    match c with
    | ⟨0, _⟩ => rfl
    | ⟨1, _⟩ => show q.val = if B = 1 then 0 else q.val; split <;> omega

/-- A vector laid out as a row reads the vector. -/
theorem asRow_at (h : (⟨1, ![B]⟩ : Shape).BroadcastsInDim ⟨2, ![1, B]⟩ ![1]) (b : (⟨1, ![B]⟩ : Shape).Idx → α) (q : Fin B) :
    broadcastInDim ⟨2, ![1, B]⟩ ![1] h b (ix2 0 q) = b (ix1 q) :=
  broadcastInDim_apply _ h b _ (ix1 q) fun c => by
    match c with
    | ⟨0, _⟩ => show q.val = if B = 1 then 0 else q.val; split <;> omega

/-- A column broadcast over B columns reads the column. -/
theorem col_at (h : (⟨2, ![A, 1]⟩ : Shape).BroadcastsInDim ⟨2, ![A, B]⟩ ![0, 1])
    (g : (⟨2, ![A, 1]⟩ : Shape).Idx → α) (p : Fin A) (q : Fin B) :
    broadcastInDim ⟨2, ![A, B]⟩ ![0, 1] h g (ix2 p q) = g (ix2 p 0) :=
  broadcastInDim_apply _ h g _ (ix2 p 0) fun c => by
    match c with
    | ⟨0, _⟩ => show p.val = if A = 1 then 0 else p.val; split <;> omega
    | ⟨1, _⟩ => rfl

end Cert.GNN.Bridge
-- ==== Proof.Bridge.lean ====
import proofs.«424204_j12678743458345_1_alg».proof.Proof.Step
import proofs.«424204_j12678743458345_1_alg».proof.Proof.BridgeLib

noncomputable section

namespace Cert.GNN.Bridge
open Idealize.ShloMosaic Idealize.ShloMosaic.ValueIdx
variable [Cert.KernelIdeal.Facts₀] [Cert.ReferenceIdeal.Facts₀]

section Ops
open Cert.KernelIdeal.Facts₀ Cert.KernelIdeal Cert.ReferenceIdeal

theorem msgs_eq (wm bm a1 a2 a3 a4 x) : K.msgs wm bm a1 a2 a3 a4 x = R.msgs wm bm a1 a2 a3 a4 x :=
  ext2 fun e j => by
    unfold R.msgs
    rw [mulf_apply, maximumf_apply, addf_apply, rows_at, asRow_at, col_at,
      dot_cat3 (l := 34) (m := 34) (n := 2) dot_S3200000x70_S70x32_S3200000x32_1_0_0_1_n_n rfl _
        slices_S70x32_S34x32_0_0 slices_S70x32_S34x32_34_0 slices_S70x32_S2x32_68_0]
    rfl

theorem h1Of_eq (wn bn x agg) : K.h1Of wn bn x agg = R.h1Of wn bn x agg :=
  ext2 fun p j => by
    unfold R.h1Of
    rw [maximumf_apply, addf_apply, rows_at, asRow_at,
      dot_cat2 (m := 34) (n := 32) dot_S100000x66_S66x32_S100000x32_1_0_0_1_n_n rfl _ slices_S66x32_S34x32_0_0 slices_S66x32_S32x32_34_0]
    rfl

theorem gNext_eq (g h1 wg bg) : K.gNext (F := Ideal) g h1 wg bg = R.gNext g h1 wg bg :=
  ext2 fun r j => by
    unfold K.gNext R.gNext
    rw [maximumf_apply, maximumf_apply, addf_apply, addf_apply, addf_apply,
      dot_cat2 (m := 32) (n := 32) dot_S1x64_S64x32_S1x32_1_0_0_1_n_n rfl _ slices_S64x32_S32x32_0_0 slices_S64x32_S32x32_32_0,
      dot_at dot_S1x32_S32x32_S1x32_1_0_0_1_n_n rfl, dot_at dot_S1x32_S32x32_S1x32_1_0_0_1_n_n rfl]
    rfl

/-- The reference's mixed state at (p, j) is the kernel's entry: the bias moves into the row (associativity of +). -/
theorem hNext_at (h1 g' wgn bgn) (p : Fin 100000) (j : Fin 32) :
    R.hNext (F := Ideal) h1 g' wgn bgn (ix2 p j)
      = nodeBHAt (N := 100000) h1 (extractStridedSlice S32x32 ![0, 0] wgn slices_S64x32_S32x32_0_0) (K.biasRow g' wgn bgn) p j := by
  unfold R.hNext nodeBHAt K.biasRow
  rw [maximumf_apply, addf_apply, addf_apply, rows_at, asRow_at,
    dot_cat2 (m := 32) (n := 32) dot_S100000x64_S64x32_S100000x32_1_0_0_1_n_n rfl _ slices_S64x32_S32x32_0_0 slices_S64x32_S32x32_32_0,
    dot_at dot_S1x32_S32x32_S1x32_1_0_0_1_n_n rfl, add_assoc]
  exact congrArg₂ max (congrArg _ (congrArg (· + _) (Finset.sum_congr rfl fun k _ => congrArg (· * _) (rows_at _ g' p k)))) rfl

theorem hNext_eq (h1 g' wgn bgn) : K.hNext h1 g' wgn bgn = R.hNext h1 g' wgn bgn :=
  ext2 fun p j => (hNext_at h1 g' wgn bgn p j).symm

theorem vNext_eq (v h1 g' wgn bgn wdv bdv) : K.vNext v h1 g' wgn bgn wdv bdv = R.vNext v (R.hNext h1 g' wgn bgn) wdv bdv :=
  ext2 fun p j => by
    unfold R.vNext
    rw [addf_apply, addf_apply, rows_at, asRow_at, dot_at dot_S100000x32_S32x2_S100000x2_1_0_0_1_n_n rfl]
    simp only [hNext_at]
    rfl

end Ops

/-- A layer's weights, read as the reference's. -/
def toRW (P : K.LayerW) : R.LayerW := ⟨P.wm, P.bm, P.wn, P.bn, P.wg, P.bg, P.wgn, P.bgn, P.wdv, P.bdv⟩
/-- A state, read as the reference's. -/
def toRS (s : K.State) : R.State := ⟨s.v, s.h, s.g⟩

/-- One layer: the kernel's step, read as the reference's state, is the reference's step. -/
theorem step_eq (P a1 a2 a3 a4 s) : toRS (K.step P a1 a2 a3 a4 s) = R.step (toRW P) a1 a2 a3 a4 (toRS s) := by
  unfold K.step R.step toRS toRW
  simp only
  rw [vNext_eq, hNext_eq, gNext_eq, h1Of_eq, msgs_eq]
  rfl

theorem init_eq (a0 a5 a6) : toRS (K.init a0 a5 a6) = R.init a0 a5 a6 := by
  unfold toRS K.init R.init
  rw [show (K.vInit : K.T Ideal _) = R.vInit from rfl, show K.hInit (F := Ideal) a0 a5 a6 = R.hInit a0 a5 a6 from rfl,
    show (K.gInit : K.T Ideal _) = R.gInit from rfl]

/-- The network: three layers from the start state give the same voltages on both sides. -/
theorem network_eq (a0 : K.T Ideal Cert.KernelIdeal.S100000x2) (a1 a2 : K.I Ideal Cert.KernelIdeal.S3200000) (a3 : K.T Ideal Cert.KernelIdeal.S3200000x2)
    (a4 : K.T Ideal Cert.KernelIdeal.S3200000) (a5 : K.T Ideal Cert.KernelIdeal.S2x32) (a6 : K.T Ideal Cert.KernelIdeal.S32)
    (a7 : K.T Ideal Cert.KernelIdeal.S3x70x32) (a8 : K.T Ideal Cert.KernelIdeal.S3x32) (a9 : K.T Ideal Cert.KernelIdeal.S3x66x32)
    (a10 : K.T Ideal Cert.KernelIdeal.S3x32) (a11 : K.T Ideal Cert.KernelIdeal.S3x64x32) (a12 : K.T Ideal Cert.KernelIdeal.S3x32)
    (a13 : K.T Ideal Cert.KernelIdeal.S3x64x32) (a14 : K.T Ideal Cert.KernelIdeal.S3x32) (a15 : K.T Ideal Cert.KernelIdeal.S3x32x2)
    (a16 : K.T Ideal Cert.KernelIdeal.S3x2) :
    (K.step (K.layerW2 a7 a8 a9 a10 a11 a12 a13 a14 a15 a16) a1 a2 a3 a4
      (K.step (K.layerW1 a7 a8 a9 a10 a11 a12 a13 a14 a15 a16) a1 a2 a3 a4
        (K.step (K.layerW0 a7 a8 a9 a10 a11 a12 a13 a14 a15 a16) a1 a2 a3 a4 (K.init a0 a5 a6)))).v
    = (R.step (R.layerW2 a7 a8 a9 a10 a11 a12 a13 a14 a15 a16) a1 a2 a3 a4
      (R.step (R.layerW1 a7 a8 a9 a10 a11 a12 a13 a14 a15 a16) a1 a2 a3 a4
        (R.step (R.layerW0 a7 a8 a9 a10 a11 a12 a13 a14 a15 a16) a1 a2 a3 a4 (R.init a0 a5 a6)))).v := by
  have hv (s : K.State) : s.v = (toRS s).v := rfl
  rw [hv, step_eq, step_eq, step_eq, init_eq]
  rfl

end Cert.GNN.Bridge

end
-- ==== Proof.lean ====
import proofs.«424204_j12678743458345_1_alg».proof.Defs
import proofs.«424204_j12678743458345_1_alg».proof.Proof.Gen.Kernel
import proofs.«424204_j12678743458345_1_alg».proof.Proof.Gen.Kernel.Frame
import proofs.«424204_j12678743458345_1_alg».proof.Proof.Gen.KernelIdeal
import proofs.«424204_j12678743458345_1_alg».proof.Proof.Gen.KernelIdeal.Frame
import proofs.«424204_j12678743458345_1_alg».proof.Proof.Gen.ReferenceIdeal
import proofs.«424204_j12678743458345_1_alg».proof.Proof.Gen.Pre_finite_inputs
import proofs.«424204_j12678743458345_1_alg».proof.Proof.KRun
import proofs.«424204_j12678743458345_1_alg».proof.Proof.KValue
import proofs.«424204_j12678743458345_1_alg».proof.Proof.RRun
import proofs.«424204_j12678743458345_1_alg».proof.Proof.RValue
import proofs.«424204_j12678743458345_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run_fold (F := Ideal) m ρ)

theorem preserves : Cert.preserves_Kernel_KernelIdeal := trivial

theorem algebraic : Cert.algebraic_KernelIdeal_ReferenceIdeal := by
  intro m ρ m' ρ' _ hagree
  refine ⟨fun c => (Cert.GNN.KSide.stepAt m c (Cert.GNN.KSide.P2 m c) (Cert.GNN.KSide.stepAt m c (Cert.GNN.KSide.P1 m c)
      (Cert.GNN.KSide.stepAt m c (Cert.GNN.KSide.P0 m c) (Cert.GNN.KSide.S0 m c)))).v, ?_, ?_⟩
  · exact (θ_run Cert.KernelIdeal.defs _ _).mono
      (fun r h c => ⟨(h c).1.trans (Cert.GNN.KSide.result_eq m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.RunP.run_fold (F := Ideal) m' ρ')
    obtain ⟨h0, h1, h2, h3, h4, h5, h6, h7, h8, h9, h10, h11, h12, h13, h14, h15, h16⟩ := hagree c
    rw [Cert.GNN.RSide.result_eq m' c, h0, h1, h2, h3, h4, h5, h6, h7, h8, h9, h10, h11, h12, h13, h14, h15, h16]
    exact (Cert.GNN.Bridge.network_eq ..).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
